-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S50000 : Shape := ⟨1, ![50000]⟩
abbrev S512x256 : Shape := ⟨2, ![512, 256]⟩
abbrev S256 : Shape := ⟨1, ![256]⟩
abbrev S256x256 : Shape := ⟨2, ![256, 256]⟩
abbrev S768x64 : Shape := ⟨2, ![768, 64]⟩
abbrev S64 : Shape := ⟨1, ![64]⟩
abbrev S64x2 : Shape := ⟨2, ![64, 2]⟩
abbrev S2 : Shape := ⟨1, ![2]⟩
abbrev S_ : Shape := ⟨0, ![]⟩
abbrev S1x400000 : Shape := ⟨2, ![1, 400000]⟩
abbrev S400000 : Shape := ⟨1, ![400000]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part9 {F : FTy → Type} [FloatOps F] (main_v149 : IVec S_ 1) (main_v153 : IVec S400000 1) (main_c_59 : IVec S_ 1) : IVec S_ 1 :=
  let main_v154 : IVec S_ 1 := (fun x v => Host.reduce IntOp.andi x v reducesTo_S400000_S_d0 h_S_) main_v153 main_c_59
  let main_v155 : IVec S_ 1 := andi main_v149 main_v154
  main_v155

def fn_part8 {F : FTy → Type} [FloatOps F] (main_arg1 : IVec S2x400000 32) (main_arg30 : FVec F S2 .f32) (main_v133 : IVec S_ 1) (main_v136 : IVec S64x2 1) : IVec S_ 1 :=
  let main_c_53 : IVec S_ 1 := constantI S_ 1 1#1
  let main_v137 : IVec S_ 1 := (fun x v => Host.reduce IntOp.andi x v reducesTo_S64x2_S_d0_1 h_S_) main_v136 main_c_53
  let main_v138 : IVec S_ 1 := andi main_v133 main_v137
  let main_v139 : FVec F S2 .f32 := Host.absf main_arg30
  let main_cst_54 : FVec F S_ .f32 := constant S_ .f32 0x7F800000#32
  let main_v140 : FVec F S2 .f32 := broadcastInDim S2 ![] bcast_S_S2 main_cst_54
  let main_v141 : IVec S2 1 := cmpf .olt main_v139 main_v140
  let main_c_55 : IVec S_ 1 := constantI S_ 1 1#1
  let main_v142 : IVec S_ 1 := (fun x v => Host.reduce IntOp.andi x v reducesTo_S2_S_d0 h_S_) main_v141 main_c_55
  let main_v143 : IVec S_ 1 := andi main_v138 main_v142
  let main_v144 : IVec S1x400000 32 := (extractStridedSlice S1x400000 ![0, 0] · slices_S2x400000_S1x400000_0_0) main_arg1
  let main_v145 : IVec S400000 32 := shapeCast S400000 main_v144 shapeCasts_S1x400000_S400000
  let main_c_56 : IVec S_ 32 := constantI S_ 32 0#32
  let main_v146 : IVec S400000 32 := broadcastInDim S400000 ![] bcast_S_S400000 main_c_56
  let main_v147 : IVec S400000 1 := cmpi .sge main_v145 main_v146
  let main_c_57 : IVec S_ 1 := constantI S_ 1 1#1
  let main_v148 : IVec S_ 1 := (fun x v => Host.reduce IntOp.andi x v reducesTo_S400000_S_d0 h_S_) main_v147 main_c_57
  let main_v149 : IVec S_ 1 := andi main_v143 main_v148
  let main_v150 : IVec S1x400000 32 := (extractStridedSlice S1x400000 ![0, 0] · slices_S2x400000_S1x400000_0_0) main_arg1
  let main_v151 : IVec S400000 32 := shapeCast S400000 main_v150 shapeCasts_S1x400000_S400000
  let main_c_58 : IVec S_ 32 := constantI S_ 32 50000#32
  let main_v152 : IVec S400000 32 := broadcastInDim S400000 ![] bcast_S_S400000 main_c_58
  let main_v153 : IVec S400000 1 := cmpi .slt main_v151 main_v152
  let main_c_59 : IVec S_ 1 := constantI S_ 1 1#1
  fn_part9 (F := F) main_v149 main_v153 main_c_59

def fn_part7 {F : FTy → Type} [FloatOps F] (main_arg1 : IVec S2x400000 32) (main_arg27 : FVec F S768x64 .f32) (main_arg28 : FVec F S64 .f32) (main_arg29 : FVec F S64x2 .f32) (main_arg30 : FVec F S2 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S768x64 .f32 := Host.absf main_arg27
  let main_cst_48 : FVec F S_ .f32 := constant S_ .f32 0x7F800000#32
  let main_v125 : FVec F S768x64 .f32 := broadcastInDim S768x64 ![] bcast_S_S768x64 main_cst_48
  let main_v126 : IVec S768x64 1 := cmpf .olt main_v124 main_v125
  let main_c_49 : IVec S_ 1 := constantI S_ 1 1#1
  let main_v127 : IVec S_ 1 := (fun x v => Host.reduce IntOp.andi x v reducesTo_S768x64_S_d0_1 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64x2 .f32 := Host.absf main_arg29
  let main_cst_52 : FVec F S_ .f32 := constant S_ .f32 0x7F800000#32
  let main_v135 : FVec F S64x2 .f32 := broadcastInDim S64x2 ![] bcast_S_S64x2 main_cst_52
  let main_v136 : IVec S64x2 1 := cmpf .olt main_v134 main_v135
  fn_part8 (F := F) main_arg1 main_arg30 main_v133 main_v136

def fn_part6 {F : FTy → Type} [FloatOps F] (main_arg1 : IVec S2x400000 32) (main_arg23 : FVec F S256 .f32) (main_arg24 : FVec F S256 .f32) (main_arg25 : FVec F S256x256 .f32) (main_arg26 : FVec F S256 .f32) (main_arg27 : FVec F S768x64 .f32) (main_arg28 : FVec F S64 .f32) (main_arg29 : FVec F S64x2 .f32) (main_arg30 : FVec F S2 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg25
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg26
  fn_part7 (F := F) main_arg1 main_arg27 main_arg28 main_arg29 main_arg30 main_v118 main_v119

def fn_part5 {F : FTy → Type} [FloatOps F] (main_arg1 : IVec S2x400000 32) (main_arg20 : FVec F S256 .f32) (main_arg21 : FVec F S256 .f32) (main_arg22 : FVec F S256 .f32) (main_arg23 : FVec F S256 .f32) (main_arg24 : FVec F S256 .f32) (main_arg25 : FVec F S256x256 .f32) (main_arg26 : FVec F S256 .f32) (main_arg27 : FVec F S768x64 .f32) (main_arg28 : FVec F S64 .f32) (main_arg29 : FVec F S64x2 .f32) (main_arg30 : FVec F S2 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg1 main_arg23 main_arg24 main_arg25 main_arg26 main_arg27 main_arg28 main_arg29 main_arg30 main_v98 main_v101 main_c_39

def fn_part4 {F : FTy → Type} [FloatOps F] (main_arg1 : IVec S2x400000 32) (main_arg16 : FVec F S256 .f32) (main_arg17 : FVec F S256x256 .f32) (main_arg18 : FVec F S256 .f32) (main_arg19 : FVec F S256x256 .f32) (main_arg20 : FVec F S256 .f32) (main_arg21 : FVec F S256 .f32) (main_arg22 : FVec F S256 .f32) (main_arg23 : FVec F S256 .f32) (main_arg24 : FVec F S256 .f32) (main_arg25 : FVec F S256x256 .f32) (main_arg26 : FVec F S256 .f32) (main_arg27 : FVec F S768x64 .f32) (main_arg28 : FVec F S64 .f32) (main_arg29 : FVec F S64x2 .f32) (main_arg30 : FVec F S2 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg1 main_arg20 main_arg21 main_arg22 main_arg23 main_arg24 main_arg25 main_arg26 main_arg27 main_arg28 main_arg29 main_arg30 main_v83 main_v84 main_cst_32

def fn_part3 {F : FTy → Type} [FloatOps F] (main_arg1 : IVec S2x400000 32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x256 .f32) (main_arg20 : FVec F S256 .f32) (main_arg21 : FVec F S256 .f32) (main_arg22 : FVec F S256 .f32) (main_arg23 : FVec F S256 .f32) (main_arg24 : FVec F S256 .f32) (main_arg25 : FVec F S256x256 .f32) (main_arg26 : FVec F S256 .f32) (main_arg27 : FVec F S768x64 .f32) (main_arg28 : FVec F S64 .f32) (main_arg29 : FVec F S64x2 .f32) (main_arg30 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg1 : IVec S2x400000 32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x256 .f32) (main_arg20 : FVec F S256 .f32) (main_arg21 : FVec F S256 .f32) (main_arg22 : FVec F S256 .f32) (main_arg23 : FVec F S256 .f32) (main_arg24 : FVec F S256 .f32) (main_arg25 : FVec F S256x256 .f32) (main_arg26 : FVec F S256 .f32) (main_arg27 : FVec F S768x64 .f32) (main_arg28 : FVec F S64 .f32) (main_arg29 : FVec F S64x2 .f32) (main_arg30 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg1 : IVec S2x400000 32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x256 .f32) (main_arg20 : FVec F S256 .f32) (main_arg21 : FVec F S256 .f32) (main_arg22 : FVec F S256 .f32) (main_arg23 : FVec F S256 .f32) (main_arg24 : FVec F S256 .f32) (main_arg25 : FVec F S256x256 .f32) (main_arg26 : FVec F S256 .f32) (main_arg27 : FVec F S768x64 .f32) (main_arg28 : FVec F S64 .f32) (main_arg29 : FVec F S64x2 .f32) (main_arg30 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x512 .f32) (main_arg1 : IVec S2x400000 32) (main_arg2 : IVec S50000 32) (main_arg3 : FVec F S512x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S256 .f32) (main_arg16 : FVec F S256 .f32) (main_arg17 : FVec F S256x256 .f32) (main_arg18 : FVec F S256 .f32) (main_arg19 : FVec F S256x256 .f32) (main_arg20 : FVec F S256 .f32) (main_arg21 : FVec F S256 .f32) (main_arg22 : FVec F S256 .f32) (main_arg23 : FVec F S256 .f32) (main_arg24 : FVec F S256 .f32) (main_arg25 : FVec F S256x256 .f32) (main_arg26 : FVec F S256 .f32) (main_arg27 : FVec F S768x64 .f32) (main_arg28 : FVec F S64 .f32) (main_arg29 : FVec F S64x2 .f32) (main_arg30 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x512 : Shape := ⟨2, ![50000, 512]⟩
abbrev S2x400000 : Shape := ⟨2, ![2, 400000]⟩
abbrev S50000 : Shape := ⟨1, ![50000]⟩
abbrev S512x256 : Shape := ⟨2, ![512, 256]⟩
abbrev S256 : Shape := ⟨1, ![256]⟩
abbrev S256x256 : Shape := ⟨2, ![256, 256]⟩
abbrev S768x64 : Shape := ⟨2, ![768, 64]⟩
abbrev S64 : Shape := ⟨1, ![64]⟩
abbrev S64x2 : Shape := ⟨2, ![64, 2]⟩
abbrev S2 : Shape := ⟨1, ![2]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x512 : Shape := ⟨2, ![400000, 512]⟩
abbrev S50000x256 : Shape := ⟨2, ![50000, 256]⟩
abbrev S1000x512 : Shape := ⟨2, ![1000, 512]⟩
abbrev S1000x256 : Shape := ⟨2, ![1000, 256]⟩
abbrev S1x256 : Shape := ⟨2, ![1, 256]⟩
abbrev S400000x256 : Shape := ⟨2, ![400000, 256]⟩
abbrev S64x256 : Shape := ⟨2, ![64, 256]⟩
abbrev S50000x1 : Shape := ⟨2, ![50000, 1]⟩
abbrev S64x768 : Shape := ⟨2, ![64, 768]⟩
abbrev S64x64 : Shape := ⟨2, ![64, 64]⟩
abbrev S1x64 : Shape := ⟨2, ![1, 64]⟩
abbrev S1x2 : Shape := ⟨2, ![1, 2]⟩
abbrev S64x1 : Shape := ⟨2, ![64, 1]⟩

abbrev nBuf : Space → Nat
  | .hbm => 137
  | .vmem => 43
  | .smem => 0
  | _ => 0

abbrev hbmTy0_0 (i : Nat) : BufTy := match i % 128 with
  | 0 => ⟨S50000x512, .f32⟩
  | 1 => ⟨S2x400000, .i32⟩
  | 2 => ⟨S50000, .i32⟩
  | 3 => ⟨S512x256, .f32⟩
  | 4 => ⟨S256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S256x256, .f32⟩
  | 18 => ⟨S256, .f32⟩
  | 19 => ⟨S256x256, .f32⟩
  | 20 => ⟨S256, .f32⟩
  | 21 => ⟨S256, .f32⟩
  | 22 => ⟨S256, .f32⟩
  | 23 => ⟨S256, .f32⟩
  | 24 => ⟨S256, .f32⟩
  | 25 => ⟨S256x256, .f32⟩
  | 26 => ⟨S256, .f32⟩
  | 27 => ⟨S768x64, .f32⟩
  | 28 => ⟨S64, .f32⟩
  | 29 => ⟨S64x2, .f32⟩
  | 30 => ⟨S2, .f32⟩
  | 31 => ⟨S1x400000, .i32⟩
  | 32 => ⟨S400000, .i32⟩
  | 33 => ⟨S1x400000, .i32⟩
  | 34 => ⟨S400000, .i32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S1, .i32⟩
  | 44 => ⟨S_, .i32⟩
  | 45 => ⟨S400000x1, .i32⟩
  | 46 => ⟨S400000x1, .i1⟩
  | 47 => ⟨S1x1, .i32⟩
  | 48 => ⟨S400000x1, .i32⟩
  | 49 => ⟨S400000x1, .i1⟩
  | 50 => ⟨S400000x1, .i1⟩
  | 51 => ⟨S_, .i1⟩
  | 52 => ⟨S400000, .i1⟩
  | 53 => ⟨S400000x512, .f32⟩
  | 54 => ⟨S400000x512, .i1⟩
  | 55 => ⟨S_, .f32⟩
  | 56 => ⟨S400000x512, .f32⟩
  | 57 => ⟨S400000x512, .f32⟩
  | 58 => ⟨S_, .f32⟩
  | 59 => ⟨S50000x512, .f32⟩
  | 60 => ⟨S400000x1, .i32⟩
  | 61 => ⟨S50000x512, .f32⟩
  | 62 => ⟨S50000x512, .f32⟩
  | 63 => ⟨S50000x256, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S1, .i32⟩
  | 73 => ⟨S_, .i32⟩
  | 74 => ⟨S400000x1, .i32⟩
  | 75 => ⟨S400000x1, .i1⟩
  | 76 => ⟨S1x1, .i32⟩
  | 77 => ⟨S400000x1, .i32⟩
  | 78 => ⟨S400000x1, .i1⟩
  | 79 => ⟨S400000x1, .i1⟩
  | 80 => ⟨S_, .i1⟩
  | 81 => ⟨S400000, .i1⟩
  | 82 => ⟨S400000x256, .f32⟩
  | 83 => ⟨S400000x256, .i1⟩
  | 84 => ⟨S_, .f32⟩
  | 85 => ⟨S400000x256, .f32⟩
  | 86 => ⟨S400000x256, .f32⟩
  | 87 => ⟨S_, .f32⟩
  | 88 => ⟨S50000x256, .f32⟩
  | 89 => ⟨S400000x1, .i32⟩
  | 90 => ⟨S50000x256, .f32⟩
  | 91 => ⟨S50000x256, .f32⟩
  | 92 => ⟨S50000x256, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S1, .i32⟩
  | 102 => ⟨S_, .i32⟩
  | 103 => ⟨S400000x1, .i32⟩
  | 104 => ⟨S400000x1, .i1⟩
  | 105 => ⟨S1x1, .i32⟩
  | 106 => ⟨S400000x1, .i32⟩
  | 107 => ⟨S400000x1, .i1⟩
  | 108 => ⟨S400000x1, .i1⟩
  | 109 => ⟨S_, .i1⟩
  | 110 => ⟨S400000, .i1⟩
  | 111 => ⟨S400000x256, .f32⟩
  | 112 => ⟨S400000x256, .i1⟩
  | 113 => ⟨S_, .f32⟩
  | 114 => ⟨S400000x256, .f32⟩
  | 115 => ⟨S400000x256, .f32⟩
  | 116 => ⟨S_, .f32⟩
  | 117 => ⟨S50000x256, .f32⟩
  | 118 => ⟨S400000x1, .i32⟩
  | 119 => ⟨S50000x256, .f32⟩
  | 120 => ⟨S50000x256, .f32⟩
  | 121 => ⟨S50000x256, .f32⟩
  | 122 => ⟨S_, .f32⟩
  | 123 => ⟨S64x256, .f32⟩
  | 124 => ⟨S50000x1, .i32⟩
  | 125 => ⟨S64x256, .f32⟩
  | 126 => ⟨S_, .f32⟩
  | 127 => ⟨S64x256, .f32⟩
  | _ => ⟨S50000x512, .f32⟩

abbrev hbmTy0_1 (i : Nat) : BufTy := match i % 128 with
  | 0 => ⟨S50000x1, .i32⟩
  | 1 => ⟨S64x256, .f32⟩
  | 2 => ⟨S_, .f32⟩
  | 3 => ⟨S64x256, .f32⟩
  | 4 => ⟨S50000x1, .i32⟩
  | 5 => ⟨S64x256, .f32⟩
  | 6 => ⟨S64x768, .f32⟩
  | 7 => ⟨S64x2, .f32⟩
  | 8 => ⟨S64x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S256x256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S256x256, .f32⟩
  | .local _ .vmem, ⟨27, _⟩ => ⟨S256, .f32⟩
  | .local _ .vmem, ⟨28, _⟩ => ⟨S256, .f32⟩
  | .local _ .vmem, ⟨29, _⟩ => ⟨S256, .f32⟩
  | .local _ .vmem, ⟨30, _⟩ => ⟨S256, .f32⟩
  | .local _ .vmem, ⟨31, _⟩ => ⟨S256, .f32⟩
  | .local _ .vmem, ⟨32, _⟩ => ⟨S256x256, .f32⟩
  | .local _ .vmem, ⟨33, _⟩ => ⟨S256, .f32⟩
  | .local _ .vmem, ⟨34, _⟩ => ⟨S1000x256, .f32⟩
  | .local _ .vmem, ⟨35, _⟩ => ⟨S1000x256, .f32⟩
  | .local _ .vmem, ⟨36, _⟩ => ⟨S64x768, .f32⟩
  | .local _ .vmem, ⟨37, _⟩ => ⟨S768x64, .f32⟩
  | .local _ .vmem, ⟨38, _⟩ => ⟨S64, .f32⟩
  | .local _ .vmem, ⟨39, _⟩ => ⟨S64x2, .f32⟩
  | .local _ .vmem, ⟨40, _⟩ => ⟨S2, .f32⟩
  | .local _ .vmem, ⟨41, _⟩ => ⟨S64x2, .f32⟩
  | .local _ .vmem, ⟨42, _⟩ => ⟨S64x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v4 : Ref sig .tc := ⟨.hbm, 57, rfl⟩
abbrev main_cst : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v10 : Ref sig .tc := ⟨.hbm, 86, rfl⟩
abbrev main_cst_0 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v16 : Ref sig .tc := ⟨.hbm, 115, rfl⟩
abbrev main_cst_1 : Ref sig .tc := ⟨.hbm, 116, rfl⟩
abbrev main_v17 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_cst_2 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_cst_3 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_cst_4 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32_0 : Ref sig .tc := ⟨.hbm, 135, rfl⟩
abbrev main_v32_1 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x768 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S768x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x512_0 : S400000.BroadcastsInDim S400000x512 (![0] : Fin 1 → Fin S400000x512.rank)
  bcast_S_S400000x512 : S_.BroadcastsInDim S400000x512 (![] : Fin 0 → Fin S400000x512.rank)
  bcast_S_S50000x512 : S_.BroadcastsInDim S50000x512 (![] : Fin 0 → Fin S50000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  inb_S1000x256_S1000x256_0_0 : ∀ a, (![0, 0] : Fin 2 → Nat) a + S1000x256.size a ≤ S1000x256.size a
  h_S1000x256 : 0 < S1000x256.numel
  bcast_S400000_S400000x256_0 : S400000.BroadcastsInDim S400000x256 (![0] : Fin 1 → Fin S400000x256.rank)
  bcast_S_S400000x256 : S_.BroadcastsInDim S400000x256 (![] : Fin 0 → Fin S400000x256.rank)
  bcast_S_S50000x256 : S_.BroadcastsInDim S50000x256 (![] : Fin 0 → Fin S50000x256.rank)
  shapeCasts_S1000x256_S1000x256 : S1000x256.ShapeCasts S1000x256
  bcast_S_S64x256 : S_.BroadcastsInDim S64x256 (![] : Fin 0 → Fin S64x256.rank)
  bcast_S50000_S50000x1_0 : S50000.BroadcastsInDim S50000x1 (![0] : Fin 1 → Fin S50000x1.rank)
  concatenates_S64x256_S64x256_S64x256_S64x768_d1 : Shape.Concatenates [S64x256, S64x256, S64x256] S64x768 1
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S768x64_S768x64_0_0 : ∀ a, (![0, 0] : Fin 2 → Nat) a + S768x64.size a ≤ S768x64.size a
  h_S768x64 : 0 < S768x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  reduces_S64x2_S64 : S64x2.Reduces [1] S64
  shapeCasts_S64_S64x1 : S64.ShapeCasts S64x1
  broadcasts_S64x1_S64x2 : S64x1.Broadcasts S64x2
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S1000x512_S512x256_S1000x256_1_0_0_1_n_n_wf : DotDims.WF S1000x512 S512x256 S1000x256 [1] [0] [0] [1] [] []
  dot_S1000x256_S256x256_S1000x256_1_0_0_1_n_n_wf : DotDims.WF S1000x256 S256x256 S1000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S64x256_S50000x1_S50000x256_1_0_0_1_wf : ScatterDims.WF S64x256 S50000x1 S50000x256 [1] [0] [0] 1
  dot_S64x768_S768x64_S64x64_1_0_0_1_n_n_wf : DotDims.WF S64x768 S768x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S50000x256.size a
  hwx0_9 : ∀ i : grid0.Coords, EltTy.bits .f32 = 32 ∨ (Rect.block (s := S50000x256) S1000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x256.size a ≤ S50000x256.size a
  hwx1_9 : ∀ i : grid1.Coords, EltTy.bits .f32 = 32 ∨ (Rect.block (s := S50000x256) S1000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256.size a ≤ S256.size a
  hwx2_8 : ∀ i : grid2.Coords, EltTy.bits .f32 = 32 ∨ (Rect.block (s := S256) S256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x256.size a ≤ S50000x256.size a
  hwx2_9 : ∀ i : grid2.Coords, EltTy.bits .f32 = 32 ∨ (Rect.block (s := S50000x256) S1000x256.size (cc2_transform_9 i) (hinb2_9 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x768.size a ≤ S64x768.size a
  hwx3_0 : ∀ i : grid3.Coords, EltTy.bits .f32 = 32 ∨ (Rect.block (s := S64x768) S64x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x64.size a ≤ S768x64.size a
  hwx3_1 : ∀ i : grid3.Coords, EltTy.bits .f32 = 32 ∨ (Rect.block (s := S768x64) S768x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2.size a ≤ S2.size a
  hwx3_4 : ∀ i : grid3.Coords, EltTy.bits .f32 = 32 ∨ (Rect.block (s := S2) S2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x2.size a ≤ S64x2.size a
  hwx3_5 : ∀ i : grid3.Coords, EltTy.bits .f32 = 32 ∨ (Rect.block (s := S64x2) S64x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x2.size a ≤ S64x2.size a
  hwx3_6 : ∀ i : grid3.Coords, EltTy.bits .f32 = 32 ∨ (Rect.block (s := S64x2) S64x2.size (cc3_transform_6 i) (hinb3_6 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x768_S768x64_S64x64_1_0_0_1_n_n : DotDims S64x768 S768x64 S64x64 where
  lhsContracting := [1]
  rhsContracting := [0]
  lhsNonContracting := [0]
  rhsNonContracting := [1]
  lhsBatch := []
  rhsBatch := []
  wf := dot_S64x768_S768x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v8) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15) S1000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v20) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg19) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg21) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg23) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg24) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg25) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v21) S1000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v31) S64x768.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg27) S768x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg28) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg29) S64x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg30) S2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32_0) S64x2.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v32_1) S64x2.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S50000 : Shape := ⟨1, ![50000]⟩
abbrev S512x256 : Shape := ⟨2, ![512, 256]⟩
abbrev S256 : Shape := ⟨1, ![256]⟩
abbrev S256x256 : Shape := ⟨2, ![256, 256]⟩
abbrev S768x64 : Shape := ⟨2, ![768, 64]⟩
abbrev S64 : Shape := ⟨1, ![64]⟩
abbrev S64x2 : Shape := ⟨2, ![64, 2]⟩
abbrev S2 : Shape := ⟨1, ![2]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000x256 : Shape := ⟨2, ![50000, 256]⟩
abbrev S1x256 : Shape := ⟨2, ![1, 256]⟩
abbrev S400000x256 : Shape := ⟨2, ![400000, 256]⟩
abbrev S64x256 : Shape := ⟨2, ![64, 256]⟩
abbrev S50000x1 : Shape := ⟨2, ![50000, 1]⟩
abbrev S64x768 : Shape := ⟨2, ![64, 768]⟩
abbrev S64x64 : Shape := ⟨2, ![64, 64]⟩
abbrev S1x64 : Shape := ⟨2, ![1, 64]⟩
abbrev S1x2 : Shape := ⟨2, ![1, 2]⟩
abbrev S64x1 : Shape := ⟨2, ![64, 1]⟩

abbrev nBuf : Space → Nat
  | .hbm => 206
  | .vmem => 0
  | .smem => 0
  | _ => 0

abbrev hbmTy0_0 (i : Nat) : BufTy := match i % 128 with
  | 0 => ⟨S50000x512, .f32⟩
  | 1 => ⟨S2x400000, .i32⟩
  | 2 => ⟨S50000, .i32⟩
  | 3 => ⟨S512x256, .f32⟩
  | 4 => ⟨S256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S256, .f32⟩
  | 16 => ⟨S256, .f32⟩
  | 17 => ⟨S256x256, .f32⟩
  | 18 => ⟨S256, .f32⟩
  | 19 => ⟨S256x256, .f32⟩
  | 20 => ⟨S256, .f32⟩
  | 21 => ⟨S256, .f32⟩
  | 22 => ⟨S256, .f32⟩
  | 23 => ⟨S256, .f32⟩
  | 24 => ⟨S256, .f32⟩
  | 25 => ⟨S256x256, .f32⟩
  | 26 => ⟨S256, .f32⟩
  | 27 => ⟨S768x64, .f32⟩
  | 28 => ⟨S64, .f32⟩
  | 29 => ⟨S64x2, .f32⟩
  | 30 => ⟨S2, .f32⟩
  | 31 => ⟨S1x400000, .i32⟩
  | 32 => ⟨S400000, .i32⟩
  | 33 => ⟨S1x400000, .i32⟩
  | 34 => ⟨S400000, .i32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x512, .f32⟩
  | 44 => ⟨S_, .f32⟩
  | 45 => ⟨S50000x512, .f32⟩
  | 46 => ⟨S400000x1, .i32⟩
  | 47 => ⟨S50000x512, .f32⟩
  | 48 => ⟨S50000x512, .f32⟩
  | 49 => ⟨S50000x256, .f32⟩
  | 50 => ⟨S1x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S256, .f32⟩
  | 58 => ⟨S256, .f32⟩
  | 59 => ⟨S256, .f32⟩
  | 60 => ⟨S1x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x256, .f32⟩
  | 88 => ⟨S_, .f32⟩
  | 89 => ⟨S50000x256, .f32⟩
  | 90 => ⟨S400000x1, .i32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S_, .f32⟩
  | 101 => ⟨S256, .f32⟩
  | 102 => ⟨S256, .f32⟩
  | 103 => ⟨S256, .f32⟩
  | 104 => ⟨S1x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S_, .i32⟩
  | 124 => ⟨S400000, .i32⟩
  | 125 => ⟨S400000, .i1⟩
  | 126 => ⟨S_, .i32⟩
  | 127 => ⟨S400000, .i32⟩
  | _ => ⟨S50000x512, .f32⟩

abbrev hbmTy0_1 (i : Nat) : BufTy := match i % 128 with
  | 0 => ⟨S400000, .i32⟩
  | 1 => ⟨S400000, .i32⟩
  | 2 => ⟨S400000x1, .i32⟩
  | 3 => ⟨S400000x256, .f32⟩
  | 4 => ⟨S_, .f32⟩
  | 5 => ⟨S50000x256, .f32⟩
  | 6 => ⟨S400000x1, .i32⟩
  | 7 => ⟨S50000x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S_, .f32⟩
  | 17 => ⟨S256, .f32⟩
  | 18 => ⟨S256, .f32⟩
  | 19 => ⟨S256, .f32⟩
  | 20 => ⟨S1x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S1x256, .f32⟩
  | 27 => ⟨S50000x256, .f32⟩
  | 28 => ⟨S50000x256, .f32⟩
  | 29 => ⟨S_, .f32⟩
  | 30 => ⟨S50000x256, .f32⟩
  | 31 => ⟨S50000x256, .f32⟩
  | 32 => ⟨S50000x256, .f32⟩
  | 33 => ⟨S1x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S_, .f32⟩
  | 40 => ⟨S64x256, .f32⟩
  | 41 => ⟨S50000x1, .i32⟩
  | 42 => ⟨S64x256, .f32⟩
  | 43 => ⟨S_, .f32⟩
  | 44 => ⟨S64x256, .f32⟩
  | 45 => ⟨S50000x1, .i32⟩
  | 46 => ⟨S64x256, .f32⟩
  | 47 => ⟨S_, .f32⟩
  | 48 => ⟨S64x256, .f32⟩
  | 49 => ⟨S50000x1, .i32⟩
  | 50 => ⟨S64x256, .f32⟩
  | 51 => ⟨S64x768, .f32⟩
  | 52 => ⟨S64x64, .f32⟩
  | 53 => ⟨S1x64, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x2, .f32⟩
  | 60 => ⟨S1x2, .f32⟩
  | 61 => ⟨S64x2, .f32⟩
  | 62 => ⟨S64x2, .f32⟩
  | 63 => ⟨S_, .f32⟩
  | 64 => ⟨S64, .f32⟩
  | 65 => ⟨S_, .f32⟩
  | 66 => ⟨S64, .f32⟩
  | 67 => ⟨S64, .f32⟩
  | 68 => ⟨S64x1, .f32⟩
  | 69 => ⟨S64x2, .f32⟩
  | 70 => ⟨S64x2, .f32⟩
  | 71 => ⟨S64x2, .f32⟩
  | 72 => ⟨S_, .f32⟩
  | 73 => ⟨S64, .f32⟩
  | 74 => ⟨S64x1, .f32⟩
  | 75 => ⟨S64x1, .f32⟩
  | 76 => ⟨S64x2, .f32⟩
  | 77 => ⟨S64x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call0_cst : Ref sig .tc := ⟨.hbm, 69, rfl⟩
abbrev main_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_cst : Ref sig .tc := ⟨.hbm, 76, rfl⟩
abbrev main_call1_v0 : Ref sig .tc := ⟨.hbm, 77, rfl⟩
abbrev main_v39 : Ref sig .tc := ⟨.hbm, 78, rfl⟩
abbrev main_c_2 : Ref sig .tc := ⟨.hbm, 79, rfl⟩
abbrev main_v40 : Ref sig .tc := ⟨.hbm, 80, rfl⟩
abbrev main_v41 : Ref sig .tc := ⟨.hbm, 81, rfl⟩
abbrev main_c_3 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_5 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call2_cst : Ref sig .tc := ⟨.hbm, 113, rfl⟩
abbrev main_call2_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call3_cst : Ref sig .tc := ⟨.hbm, 120, rfl⟩
abbrev main_call3_v0 : Ref sig .tc := ⟨.hbm, 121, rfl⟩
abbrev main_v75 : Ref sig .tc := ⟨.hbm, 122, rfl⟩
abbrev main_c_6 : Ref sig .tc := ⟨.hbm, 123, rfl⟩
abbrev main_v76 : Ref sig .tc := ⟨.hbm, 124, rfl⟩
abbrev main_v77 : Ref sig .tc := ⟨.hbm, 125, rfl⟩
abbrev main_c_7 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_8 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_9 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_call4_cst : Ref sig .tc := ⟨.hbm, 157, rfl⟩
abbrev main_call4_v0 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_call5_cst : Ref sig .tc := ⟨.hbm, 164, rfl⟩
abbrev main_call5_v0 : Ref sig .tc := ⟨.hbm, 165, rfl⟩
abbrev main_v111 : Ref sig .tc := ⟨.hbm, 166, rfl⟩
abbrev main_cst_10 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_11 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_12 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_call6_cst : Ref sig .tc := ⟨.hbm, 184, rfl⟩
abbrev main_call6_v0 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_call7_cst : Ref sig .tc := ⟨.hbm, 191, rfl⟩
abbrev main_call7_v0 : Ref sig .tc := ⟨.hbm, 192, rfl⟩
abbrev main_call7_cst_0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_v5 : Ref sig .tc := ⟨.hbm, 198, rfl⟩
abbrev main_call7_v6 : Ref sig .tc := ⟨.hbm, 199, rfl⟩
abbrev main_call7_cst_1 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_v131 : Ref sig .tc := ⟨.hbm, 205, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  concatenates_S64x256_S64x256_S64x256_S64x768_d1 : Shape.Concatenates [S64x256, S64x256, S64x256] S64x768 1
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S64x256_S50000x1_S50000x256_1_0_0_1_wf : ScatterDims.WF S64x256 S50000x1 S50000x256 [1] [0] [0] 1
  dot_S64x768_S768x64_S64x64_1_0_0_1_n_n_wf : DotDims.WF S64x768 S768x64 S64x64 [1] [0] [0] [1] [] []
  dot_S64x64_S64x2_S64x2_1_0_0_1_n_n_wf : DotDims.WF S64x64 S64x2 S64x2 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x768_S768x64_S64x64_1_0_0_1_n_n : DotDims S64x768 S768x64 S64x64 where
  lhsContracting := [1]
  rhsContracting := [0]
  lhsNonContracting := [0]
  rhsNonContracting := [1]
  lhsBatch := []
  rhsBatch := []
  wf := dot_S64x768_S768x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KBody0.lean ====
import proofs.«423125_j18107582120449_1_alg».proof.Proof.Gen.Kernel.Launch
import proofs.«423125_j18107582120449_1_alg».proof.Proof.Gen.Kernel.Skeleton
import proofs.«423125_j18107582120449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S1000x256 := Rect.unit (s := S1000x256) ![0, 0] S1000x256.size inb_S1000x256_S1000x256_0_0

abbrev r0_in : Rect S1000x512 := Rect.unit (s := S1000x512) ![0, 0] S1000x512.size inb_S1000x512_S1000x512_0_0

abbrev r0_mat1 : Rect S512x256 := Rect.unit (s := S512x256) ![0, 0] S512x256.size inb_S512x256_S512x256_0_0

abbrev r0_mat : Rect S256x256 := Rect.unit (s := S256x256) ![0, 0] S256x256.size inb_S256x256_S256x256_0_0

abbrev r0_vec : Rect S256 := Rect.unit (s := S256) ![0] S256.size inb_S256_S256_0

def out0_9 (x0 : Vec F S1000x512 .f32) (x1 : Vec F S512x256 .f32) (x2 : Vec F S256 .f32) (x3 : Vec F S256 .f32) (x4 : Vec F S256 .f32) (x5 : Vec F S256 .f32) (x6 : Vec F S256 .f32) (x7 : Vec F S256x256 .f32) (x8 : Vec F S256 .f32) : Vec F S1000x256 .f32 :=
  View.canon [⟨r0_out, k0_pay1 (View.ld x0 r0_in) (View.ld x1 r0_mat1) (View.ld x2 r0_vec) (View.ld x6 r0_vec) (View.ld x3 r0_vec) (View.ld x5 r0_vec) (View.ld x4 r0_vec) (View.ld x7 r0_mat) (View.ld x8 r0_vec)⟩]

theorem cover0_9 (p0 : Vec F S1000x256 .f32) (y : S1000x256.Idx) :
    ∃ pc ∈ ([⟨r0_out, p0⟩] : List (View.Piece (Elt F) S1000x256 .f32)), y ∈ pc.1.set :=
  View.cover_of_tiled [⟨r0_out, p0⟩] S1000x256.size (by rfl) y

set_option maxHeartbeats 1000000 in

theorem sound_kernel0 (c : Dev nD) (E : Set ℕ) (i : grid0.Coords) (arg1 : Memref sig .tc .vmem S1000x512 .f32) (harg1 : arg1.IsWhole) (arg2 : Memref sig .tc .vmem S512x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S1000x256 .f32) (harg10 : arg10.IsWhole)
    (x0 : Vec F S1000x512 .f32) (x1 : Vec F S512x256 .f32) (x2 : Vec F S256 .f32) (x3 : Vec F S256 .f32) (x4 : Vec F S256 .f32) (x5 : Vec F S256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem after0 (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t ∧ (dat0 V c).after 7 t = iblk0 V c 7 t ∧ (dat0 V c).after 8 t = iblk0 V c 8 t ∧ (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by
  and_intros <;> dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) :=
  (after0 V c t).2.2.2.2.2.2.2.2.2

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) := by
  and_intros <;> intro d <;>
    exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ bigSep Finset.univ fun w : Fin cfg0.W => iprop(∃ d, owns (c : Thread nD τ) ((cfg0.win w).stage (cfg0.slots t w)) fullShare ((dat0 V c).before w t d)))
    ⊢ wp frame (wpE (defs₀ (F := F)) Variants.none c none) Set.univ (bodyAt0 t) (fun _ =>
      iprop((dat0 V c).Φ t.succ ∗ (dat0 V c).owesAt () t.succ
        ∗ bigSep Finset.univ fun w : Fin cfg0.W => owns (c : Thread nD τ) ((cfg0.win w).stage (cfg0.slots t w)) fullShare ((dat0 V c).after w t))) := by
  rw [bigSep_W0, bigSep_W0]
  simp only [before0 V c t, after0 V c t]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  iframe H0 H1 H2 H3 H4 H5 H6 H7 H8
  isplitl [H9]; · iexists _; iexact H9
  iintro H
  iframe HΦ Ho
  iexact H

theorem body_obligation0 (c : Dev nD) : BodyObligation (dat0 (F := F) V c) (defs₀ (F := F)) Variants.none () Set.univ :=
  fun t => sound_body0 V c t

end Cert.Kernel.Hand

end
-- ==== Proof.KBody1.lean ====
import proofs.«423125_j18107582120449_1_alg».proof.Proof.Gen.Kernel.Launch
import proofs.«423125_j18107582120449_1_alg».proof.Proof.Gen.Kernel.Skeleton
import proofs.«423125_j18107582120449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_out : Rect S1000x256 := Rect.unit (s := S1000x256) ![0, 0] S1000x256.size inb_S1000x256_S1000x256_0_0

abbrev r1_mat : Rect S256x256 := Rect.unit (s := S256x256) ![0, 0] S256x256.size inb_S256x256_S256x256_0_0

abbrev r1_vec : Rect S256 := Rect.unit (s := S256) ![0] S256.size inb_S256_S256_0

def out1_9 (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) : Vec F S1000x256 .f32 :=
  View.canon [⟨r1_out, k1_pay1 (View.ld x0 r1_out) (View.ld x1 r1_mat) (View.ld x2 r1_vec) (View.ld x6 r1_vec) (View.ld x3 r1_vec) (View.ld x5 r1_vec) (View.ld x4 r1_vec) (View.ld x7 r1_mat) (View.ld x8 r1_vec)⟩]

theorem cover1_9 (p0 : Vec F S1000x256 .f32) (y : S1000x256.Idx) :
    ∃ pc ∈ ([⟨r1_out, p0⟩] : List (View.Piece (Elt F) S1000x256 .f32)), y ∈ pc.1.set :=
  View.cover_of_tiled [⟨r1_out, p0⟩] S1000x256.size (by rfl) y

set_option maxHeartbeats 1000000 in

theorem sound_kernel1 (c : Dev nD) (E : Set ℕ) (i : grid1.Coords) (arg1 : Memref sig .tc .vmem S1000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S1000x256 .f32) (harg10 : arg10.IsWhole)
    (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t ∧ (dat1 V c).after 7 t = iblk1 V c 7 t ∧ (dat1 V c).after 8 t = iblk1 V c 8 t ∧ (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  and_intros <;> dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) :=
  (after1 V c t).2.2.2.2.2.2.2.2.2

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) := by
  and_intros <;> intro d <;>
    exact ((dat1 V c).before_in_eq_fetched _ rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) (fun _ =>
      iprop((dat1 V c).Φ t.succ ∗ (dat1 V c).owesAt () t.succ
        ∗ bigSep Finset.univ fun w : Fin cfg1.W => owns (c : Thread nD τ) ((cfg1.win w).stage (cfg1.slots t w)) fullShare ((dat1 V c).after w t))) := by
  rw [bigSep_W1, bigSep_W1]
  simp only [before1 V c t, after1 V c t]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  iframe H0 H1 H2 H3 H4 H5 H6 H7 H8
  isplitl [H9]; · iexists _; iexact H9
  iintro H
  iframe HΦ Ho
  iexact H

theorem body_obligation1 (c : Dev nD) : BodyObligation (dat1 (F := F) V c) (defs₀ (F := F)) Variants.none () Set.univ :=
  fun t => sound_body1 V c t

end Cert.Kernel.Hand

end
-- ==== Proof.KBody2.lean ====
import proofs.«423125_j18107582120449_1_alg».proof.Proof.Gen.Kernel.Launch
import proofs.«423125_j18107582120449_1_alg».proof.Proof.Gen.Kernel.Skeleton
import proofs.«423125_j18107582120449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_out : Rect S1000x256 := Rect.unit (s := S1000x256) ![0, 0] S1000x256.size inb_S1000x256_S1000x256_0_0

abbrev r2_mat : Rect S256x256 := Rect.unit (s := S256x256) ![0, 0] S256x256.size inb_S256x256_S256x256_0_0

abbrev r2_vec : Rect S256 := Rect.unit (s := S256) ![0] S256.size inb_S256_S256_0

def out2_9 (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) : Vec F S1000x256 .f32 :=
  View.canon [⟨r2_out, k2_pay1 (View.ld x0 r2_out) (View.ld x1 r2_mat) (View.ld x2 r2_vec) (View.ld x6 r2_vec) (View.ld x3 r2_vec) (View.ld x5 r2_vec) (View.ld x4 r2_vec) (View.ld x7 r2_mat) (View.ld x8 r2_vec)⟩]

theorem cover2_9 (p0 : Vec F S1000x256 .f32) (y : S1000x256.Idx) :
    ∃ pc ∈ ([⟨r2_out, p0⟩] : List (View.Piece (Elt F) S1000x256 .f32)), y ∈ pc.1.set :=
  View.cover_of_tiled [⟨r2_out, p0⟩] S1000x256.size (by rfl) y

set_option maxHeartbeats 1000000 in

theorem sound_kernel2 (c : Dev nD) (E : Set ℕ) (i : grid2.Coords) (arg1 : Memref sig .tc .vmem S1000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S1000x256 .f32) (harg10 : arg10.IsWhole)
    (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t ∧ (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by
  and_intros <;> dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) :=
  (after2 V c t).2.2.2.2.2.2.2.2.2

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) := by
  and_intros <;> intro d <;>
    exact ((dat2 V c).before_in_eq_fetched _ rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ bigSep Finset.univ fun w : Fin cfg2.W => iprop(∃ d, owns (c : Thread nD τ) ((cfg2.win w).stage (cfg2.slots t w)) fullShare ((dat2 V c).before w t d)))
    ⊢ wp frame (wpE (defs₀ (F := F)) Variants.none c none) Set.univ (bodyAt2 t) (fun _ =>
      iprop((dat2 V c).Φ t.succ ∗ (dat2 V c).owesAt () t.succ
        ∗ bigSep Finset.univ fun w : Fin cfg2.W => owns (c : Thread nD τ) ((cfg2.win w).stage (cfg2.slots t w)) fullShare ((dat2 V c).after w t))) := by
  rw [bigSep_W2, bigSep_W2]
  simp only [before2 V c t, after2 V c t]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  iintro H
  iframe HΦ Ho
  iexact H

theorem body_obligation2 (c : Dev nD) : BodyObligation (dat2 (F := F) V c) (defs₀ (F := F)) Variants.none () Set.univ :=
  fun t => sound_body2 V c t

end Cert.Kernel.Hand

end
-- ==== Proof.KBody3.lean ====
import proofs.«423125_j18107582120449_1_alg».proof.Proof.Gen.Kernel.Launch
import proofs.«423125_j18107582120449_1_alg».proof.Proof.Gen.Kernel.Skeleton
import proofs.«423125_j18107582120449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S64x768 := Rect.unit (s := S64x768) ![0, 0] S64x768.size inb_S64x768_S64x768_0_0
abbrev r3_1 : Rect S768x64 := Rect.unit (s := S768x64) ![0, 0] S768x64.size inb_S768x64_S768x64_0_0
abbrev r3_2 : Rect S64 := Rect.unit (s := S64) ![0] S64.size inb_S64_S64_0
abbrev r3_3 : Rect S64x2 := Rect.unit (s := S64x2) ![0, 0] S64x2.size inb_S64x2_S64x2_0_0
abbrev r3_4 : Rect S2 := Rect.unit (s := S2) ![0] S2.size inb_S2_S2_0

def out3_5 (x0 : Vec F S64x768 .f32) (x1 : Vec F S768x64 .f32) (x2 : Vec F S64 .f32) (x3 : Vec F S64x2 .f32) (x4 : Vec F S2 .f32) : Vec F S64x2 .f32 :=
  View.canon [⟨r3_3, k3_pay1 (View.ld x0 r3_0) (View.ld x1 r3_1) (View.ld x2 r3_2) (View.ld x3 r3_3) (View.ld x4 r3_4)⟩]

theorem cover3_5 (p0 : Vec F S64x2 .f32) (y : S64x2.Idx) :
    ∃ pc ∈ ([⟨r3_3, p0⟩] : List (View.Piece (Elt F) S64x2 .f32)), y ∈ pc.1.set :=
  View.cover_of_tiled [⟨r3_3, p0⟩] S64x2.size (by rfl) y

def out3_6 (x0 : Vec F S64x768 .f32) (x1 : Vec F S768x64 .f32) (x2 : Vec F S64 .f32) (x3 : Vec F S64x2 .f32) (x4 : Vec F S2 .f32) : Vec F S64x2 .f32 :=
  View.canon [⟨r3_3, k3_pay2 (View.ld x0 r3_0) (View.ld x1 r3_1) (View.ld x2 r3_2) (View.ld x3 r3_3) (View.ld x4 r3_4)⟩]

theorem cover3_6 (p0 : Vec F S64x2 .f32) (y : S64x2.Idx) :
    ∃ pc ∈ ([⟨r3_3, p0⟩] : List (View.Piece (Elt F) S64x2 .f32)), y ∈ pc.1.set :=
  View.cover_of_tiled [⟨r3_3, p0⟩] S64x2.size (by rfl) y

set_option maxHeartbeats 1000000 in

theorem sound_kernel3 (c : Dev nD) (E : Set ℕ) (i : grid3.Coords) (arg1 : Memref sig .tc .vmem S64x768 .f32) (harg1 : arg1.IsWhole) (arg2 : Memref sig .tc .vmem S768x64 .f32) (harg2 : arg2.IsWhole) (arg3 : Memref sig .tc .vmem S64 .f32) (harg3 : arg3.IsWhole) (arg4 : Memref sig .tc .vmem S64x2 .f32) (harg4 : arg4.IsWhole) (arg5 : Memref sig .tc .vmem S2 .f32) (harg5 : arg5.IsWhole) (arg6 : Memref sig .tc .vmem S64x2 .f32) (harg6 : arg6.IsWhole) (arg7 : Memref sig .tc .vmem S64x2 .f32) (harg7 : arg7.IsWhole)
    (x0 : Vec F S64x768 .f32) (x1 : Vec F S768x64 .f32) (x2 : Vec F S64 .f32) (x3 : Vec F S64x2 .f32) (x4 : Vec F S2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3__final_mlp_kernel i arg1 harg1 arg2 harg2 arg3 harg3 arg4 harg4 arg5 harg5 arg6 harg6 arg7 harg7) K := by
  simp only [cc3__final_mlp_kernel_eq_skeleton]; unfold cc3__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem after3 (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = out3_5 (iblk3 V c 0 t) (iblk3 V c 1 t) (iblk3 V c 2 t) (iblk3 V c 3 t) (iblk3 V c 4 t) ∧ (dat3 V c).after 6 t = out3_6 (iblk3 V c 0 t) (iblk3 V c 1 t) (iblk3 V c 2 t) (iblk3 V c 3 t) (iblk3 V c 4 t) := by
  and_intros <;> dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) :=
  (after3 V c t).2.2.2.2.2.1
theorem after3_6 (c : Dev nD) (t : Fin cfg3.N) : (dat3 V c).after 6 t = out3_6 (iblk3 V c 0 t) (iblk3 V c 1 t) (iblk3 V c 2 t) (iblk3 V c 3 t) (iblk3 V c 4 t) :=
  (after3 V c t).2.2.2.2.2.2

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) := by
  and_intros <;> intro d <;>
    exact ((dat3 V c).before_in_eq_fetched _ rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ bigSep Finset.univ fun w : Fin cfg3.W => iprop(∃ d, owns (c : Thread nD τ) ((cfg3.win w).stage (cfg3.slots t w)) fullShare ((dat3 V c).before w t d)))
    ⊢ wp frame (wpE (defs₀ (F := F)) Variants.none c none) Set.univ (bodyAt3 t) (fun _ =>
      iprop((dat3 V c).Φ t.succ ∗ (dat3 V c).owesAt () t.succ
        ∗ bigSep Finset.univ fun w : Fin cfg3.W => owns (c : Thread nD τ) ((cfg3.win w).stage (cfg3.slots t w)) fullShare ((dat3 V c).after w t))) := by
  rw [bigSep_W3, bigSep_W3]
  simp only [before3 V c t, after3 V c t]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  isplitl [H6]; · iexists _; iexact H6
  iintro H
  iframe HΦ Ho
  iexact H

theorem body_obligation3 (c : Dev nD) : BodyObligation (dat3 (F := F) V c) (defs₀ (F := F)) Variants.none () Set.univ :=
  fun t => sound_body3 V c t

end Cert.Kernel.Hand

end
-- ==== Proof.KRun.lean ====
import proofs.«423125_j18107582120449_1_alg».proof.Proof.Gen.Kernel.Regions
import proofs.«423125_j18107582120449_1_alg».proof.Proof.KBody0
import proofs.«423125_j18107582120449_1_alg».proof.Proof.KBody1
import proofs.«423125_j18107582120449_1_alg».proof.Proof.KBody2
import proofs.«423125_j18107582120449_1_alg».proof.Proof.KBody3

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0 : Dev nD → Valuation τ sig (Elt F) := fun c b => (s₀ m ρ).mem ((c : Dev nD), b)

abbrev B1 : Dev nD → Valuation τ sig (Elt F) := fun c => StableHlo.after hostOps0 (B0 m ρ c)

abbrev B2 : Dev nD → Valuation τ sig (Elt F) := fun c => StableHlo.after hostOps0_1 (B1 m ρ c)

abbrev B3 : Dev nD → Valuation τ sig (Elt F) := fun c => StableHlo.after hostOps0_2 (B2 m ρ c)

abbrev E3 : (c : Dev nD) → (b : Ref sig .tc) → Buf (Elt F) ((c : Thread nD τ).loc b) := fun c b => B3 m ρ c b

def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb

theorem B4_keep (c : Dev nD) (b : Ref sig .tc) (hb : b ≠ main_v9) :
    B4 m ρ c (Proc.devRef .tc b) = B3 m ρ c (Proc.devRef .tc b) := by
  by_cases h : ∃ w, Pipeline.arrRef spec0 w = b
  · obtain ⟨w, rfl⟩ := h
    have hin : (cfg0.win w).isOut = false := by
      revert hb; revert w; decide
    exact (B4_arr m ρ c w).trans (((dat0 (E3 m ρ) c).arrAt_in w hin _).trans rfl)
  · exact B4_of_ne m ρ c b fun w e => h ⟨w, e⟩

abbrev B5 : Dev nD → Valuation τ sig (Elt F) := fun c => StableHlo.after hostOps1 (B4 m ρ c)

abbrev B6 : Dev nD → Valuation τ sig (Elt F) := fun c => StableHlo.after hostOps1_1 (B5 m ρ c)

abbrev E6 : (c : Dev nD) → (b : Ref sig .tc) → Buf (Elt F) ((c : Thread nD τ).loc b) := fun c b => B6 m ρ c b

def B7 (c : Dev nD) : Valuation τ sig (Elt F) :=
  Pipeline.withArrays spec1 c (B6 m ρ c) fun w => (dat1 (E6 m ρ) c).arrAt w cfg1.N
theorem B7_arr (c : Dev nD) (w : Fin cfg1.W) :
    B7 m ρ c (Proc.devRef .tc (Pipeline.arrRef spec1 w)) = (dat1 (E6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb

theorem B7_keep (c : Dev nD) (b : Ref sig .tc) (hb : b ≠ main_v15) :
    B7 m ρ c (Proc.devRef .tc b) = B6 m ρ c (Proc.devRef .tc b) := by
  by_cases h : ∃ w, Pipeline.arrRef spec1 w = b
  · obtain ⟨w, rfl⟩ := h
    have hin : (cfg1.win w).isOut = false := by
      revert hb; revert w; decide
    exact (B7_arr m ρ c w).trans (((dat1 (E6 m ρ) c).arrAt_in w hin _).trans rfl)
  · exact B7_of_ne m ρ c b fun w e => h ⟨w, e⟩

abbrev B8 : Dev nD → Valuation τ sig (Elt F) := fun c => StableHlo.after hostOps2 (B7 m ρ c)

abbrev B9 : Dev nD → Valuation τ sig (Elt F) := fun c => StableHlo.after hostOps2_1 (B8 m ρ c)

abbrev E9 : (c : Dev nD) → (b : Ref sig .tc) → Buf (Elt F) ((c : Thread nD τ).loc b) := fun c b => B9 m ρ c b

def B10 (c : Dev nD) : Valuation τ sig (Elt F) :=
  Pipeline.withArrays spec2 c (B9 m ρ c) fun w => (dat2 (E9 m ρ) c).arrAt w cfg2.N
theorem B10_arr (c : Dev nD) (w : Fin cfg2.W) :
    B10 m ρ c (Proc.devRef .tc (Pipeline.arrRef spec2 w)) = (dat2 (E9 m ρ) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m ρ c (Proc.devRef .tc b) = B9 m ρ c (Proc.devRef .tc b) := by
  unfold B10; exact Pipeline.withArrays_of_ne spec2 c _ _ b hb

theorem B10_keep (c : Dev nD) (b : Ref sig .tc) (hb : b ≠ main_v21) :
    B10 m ρ c (Proc.devRef .tc b) = B9 m ρ c (Proc.devRef .tc b) := by
  by_cases h : ∃ w, Pipeline.arrRef spec2 w = b
  · obtain ⟨w, rfl⟩ := h
    have hin : (cfg2.win w).isOut = false := by
      revert hb; revert w; decide
    exact (B10_arr m ρ c w).trans (((dat2 (E9 m ρ) c).arrAt_in w hin _).trans rfl)
  · exact B10_of_ne m ρ c b fun w e => h ⟨w, e⟩

abbrev B11 : Dev nD → Valuation τ sig (Elt F) := fun c => StableHlo.after hostOps3 (B10 m ρ c)

abbrev E11 : (c : Dev nD) → (b : Ref sig .tc) → Buf (Elt F) ((c : Thread nD τ).loc b) := fun c b => B11 m ρ c b

def B12 (c : Dev nD) : Valuation τ sig (Elt F) :=
  Pipeline.withArrays spec3 c (B11 m ρ c) fun w => (dat3 (E11 m ρ) c).arrAt w cfg3.N
theorem B12_arr (c : Dev nD) (w : Fin cfg3.W) :
    B12 m ρ c (Proc.devRef .tc (Pipeline.arrRef spec3 w)) = (dat3 (E11 m ρ) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m ρ c (Proc.devRef .tc b) = B11 m ρ c (Proc.devRef .tc b) := by
  unfold B12; exact Pipeline.withArrays_of_ne spec3 c _ _ b hb

theorem B12_keep (c : Dev nD) (b : Ref sig .tc) (hb : b ≠ main_v32_0) (hb' : b ≠ main_v32_1) :
    B12 m ρ c (Proc.devRef .tc b) = B11 m ρ c (Proc.devRef .tc b) := by
  by_cases h : ∃ w, Pipeline.arrRef spec3 w = b
  · obtain ⟨w, rfl⟩ := h
    have hin : (cfg3.win w).isOut = false := by
      revert hb hb'; revert w; decide
    exact (B12_arr m ρ c w).trans (((dat3 (E11 m ρ) c).arrAt_in w hin _).trans rfl)
  · exact B12_of_ne m ρ c b fun w e => h ⟨w, e⟩

def pdats : (p : Fin 4) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E6 m ρ) c
  | ⟨2, _⟩ => fun c => dat2 (E9 m ρ) c
  | ⟨3, _⟩ => fun c => dat3 (E11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (B12 m ρ c) ∗ ∃ r, prngReg c r)

set_option backward.isDefEq.respectTransparency.types false in
/-- A kernel call as one segment of the main function, from the contents `Bin` to the contents `Bout`. -/
def regOf (p : Fin 4) (hw : Pipeline.WinFacts (pcfgs (F := F) p).spec) (harr : ∀ w, ((pcfgs (F := F) p).spec w).arr.IsWhole)
    (bp : ∀ w : Fin (Pipeline.pin (pcfgs (F := F)) adm p).W, 0 < ((Pipeline.pin (pcfgs (F := F)) adm p).spec w).block.numel)
    (sw : ∀ (w : Fin (Pipeline.pin (pcfgs (F := F)) adm p).W) (s : Fin ((Pipeline.pin (pcfgs (F := F)) adm p).spec w).nbuf), (((Pipeline.pin (pcfgs (F := F)) adm p).spec w).stage s).IsWhole)
    (hbody : ∀ c, Pipeline.BodyObligationLoose (pdats m ρ p c) defs₀ 𝒱₀ () Set.univ)
    (howed : ∀ c t, (pdats m ρ p c).owed t = 0) (hrec : ∀ (c : Dev nD) x, x ∈ (pdats m ρ p c).recorded 0)
    (hq : ∀ (c : Dev nD) w, (pdats m ρ p c).q w = fullShare)
    (Bin Bout : Dev nD → Valuation τ sig (Elt F)) (post : Dev nD → sProp 𝕄)
    (hpre : ∀ c : Dev nD, (BI.emp : sProp 𝕄) ⊢ Pipeline.prefHeld (pcfgs (F := F) p).pre c (fun _ => fullShare) (adm p).1)
    (hΦ : ∀ c t, (pdats m ρ p c).Φ t = Pipeline.ΦA (Pipeline.pin (pcfgs (F := F)) adm p).spec c)
    (hA : ∀ (c : Dev nD) w, (pdats m ρ p c).A w = Bin c (Proc.devRef .tc (Pipeline.arrRef (pcfgs (F := F) p).spec w)))
    (hF : ∀ (c : Dev nD) w, Bout c (Proc.devRef .tc (Pipeline.arrRef (Pipeline.pin (pcfgs (F := F)) adm p).spec w)) = (pdats m ρ p c).arrAt w (Pipeline.pin (pcfgs (F := F)) adm p).N)
    (hne : ∀ (c : Dev nD) (b : Ref sig .tc), (∀ w, Pipeline.arrRef (Pipeline.pin (pcfgs (F := F)) adm p).spec w ≠ b) → Bout c (Proc.devRef .tc b) = Bin c (Proc.devRef .tc b))
    (hpost : ∀ c : Dev nD, iprop(StableHlo.held (c : Thread nD τ) (Pipeline.ucRefs τ sig) (Bout c) ∗ R c) ⊢ post c) :
    Pipeline.RegionSeg (pcfgs (F := F)) adm (pdats m ρ) () defs₀ 𝒱₀ L lv p where
  win := hw.to₀
  block_pos := bp
  stage_whole := sw
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Bin c) ∗ R c)
  post := post
  X c := iprop(∃ r, prngReg c r)
  Y c := iprop(∃ r, prngReg c r)
  Z c := Pipeline.unscopedRest (Ix := Unit) (Name := ℕ) (U := UR sig nD τ) (Lvl := ℕ) (pcfgs (F := F) p).spec c (fun b => Bin c b)
  hentry c := by
    rw [Pipeline.ownSems0_none]
    have hsplit := Pipeline.arrays_of_unscopedBufs (p := p) (pcfgs (F := F)) adm (pdats m ρ) hw harr c
      ((pdats m ρ p c).share_full (hq c)) (fun b => Bin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      icases HO with ⟨%W, HO⟩; iexists W; isplitr; · ipureintro; exact fun x _ => Or.inl (hrec c x)
      rw [howed c 0]; iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hw harr c (pdats m ρ) ((pdats m ρ p c).share_full (hq c)) (fun b => Bin c b) (fun b => Bout c b)
      ((pdats m ρ p c).arrAt · (Pipeline.pin (pcfgs (F := F)) adm p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin
    icases HO with ⟨%W, -, HO⟩; iexists W; rw [howed c]; iexact HO

set_option backward.isDefEq.respectTransparency.types false in
def reg0 : Pipeline.RegionSeg (pcfgs (F := F)) adm (pdats m ρ) () defs₀ 𝒱₀ L lv 0 :=
  regOf m ρ 0 launch0.win launch0.arr_whole launch0.block_pos launch0.stage_whole (fun c => (body_obligation0 (E3 m ρ) c).loose)
    (fun _ _ => rfl) (fun _ _ => trivial) (fun _ _ => rfl) (B3 m ρ) (B4 m ρ) (fun c => iprop(StableHlo.held (c : Thread nD τ) (Pipeline.ucRefs τ sig) (B4 m ρ c) ∗ R c))
    (fun c => by unfold Pipeline.prefHeld; rw [show (Finset.univ : Finset (Fin 0)) = ∅ from rfl, BI.bigSep_empty])
    (fun _ _ => rfl) (fun _ _ => rfl) (B4_arr m ρ) (B4_of_ne m ρ) (fun _ => .rfl)

set_option backward.isDefEq.respectTransparency.types false in
def reg1 : Pipeline.RegionSeg (pcfgs (F := F)) adm (pdats m ρ) () defs₀ 𝒱₀ L lv 1 :=
  regOf m ρ 1 launch1.win launch1.arr_whole launch1.block_pos launch1.stage_whole (fun c => (body_obligation1 (E6 m ρ) c).loose)
    (fun _ _ => rfl) (fun _ _ => trivial) (fun _ _ => rfl) (B6 m ρ) (B7 m ρ) (fun c => iprop(StableHlo.held (c : Thread nD τ) (Pipeline.ucRefs τ sig) (B7 m ρ c) ∗ R c))
    (fun c => by unfold Pipeline.prefHeld; rw [show (Finset.univ : Finset (Fin 0)) = ∅ from rfl, BI.bigSep_empty])
    (fun _ _ => rfl) (fun _ _ => rfl) (B7_arr m ρ) (B7_of_ne m ρ) (fun _ => .rfl)

set_option backward.isDefEq.respectTransparency.types false in
def reg2 : Pipeline.RegionSeg (pcfgs (F := F)) adm (pdats m ρ) () defs₀ 𝒱₀ L lv 2 :=
  regOf m ρ 2 launch2.win launch2.arr_whole launch2.block_pos launch2.stage_whole (fun c => (body_obligation2 (E9 m ρ) c).loose)
    (fun _ _ => rfl) (fun _ _ => trivial) (fun _ _ => rfl) (B9 m ρ) (B10 m ρ) (fun c => iprop(StableHlo.held (c : Thread nD τ) (Pipeline.ucRefs τ sig) (B10 m ρ c) ∗ R c))
    (fun c => by unfold Pipeline.prefHeld; rw [show (Finset.univ : Finset (Fin 0)) = ∅ from rfl, BI.bigSep_empty])
    (fun _ _ => rfl) (fun _ _ => rfl) (B10_arr m ρ) (B10_of_ne m ρ) (fun _ => .rfl)

set_option backward.isDefEq.respectTransparency.types false in
def reg3 : Pipeline.RegionSeg (pcfgs (F := F)) adm (pdats m ρ) () defs₀ 𝒱₀ L lv 3 :=
  regOf m ρ 3 launch3.win launch3.arr_whole launch3.block_pos launch3.stage_whole (fun c => (body_obligation3 (E11 m ρ) c).loose)
    (fun _ _ => rfl) (fun _ _ => trivial) (fun _ _ => rfl) (B11 m ρ) (B12 m ρ) (fun c => iprop(Tₙ m ρ c ∗ ∃ W, owes (c : Thread nD τ) (0 : CellTallies nD τ sig Unit) W))
    (fun c => by unfold Pipeline.prefHeld; rw [show (Finset.univ : Finset (Fin 0)) = ∅ from rfl, BI.bigSep_empty])
    (fun _ _ => rfl) (fun _ _ => rfl) (B12_arr m ρ) (B12_of_ne m ρ) (fun c => by
      iintro ⟨H, Hp, HO⟩
      isplitl [H Hp]
      · isplitl [H]; · iexact H
        iexact Hp
      iexact HO)

abbrev segs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .host (hseg hostOps1_1 hostOps1_1_sub hostOps1_1_fresh (B5 m ρ)),
    .region (reg1 m ρ),
    .host (hseg hostOps2 hostOps2_sub hostOps2_fresh (B7 m ρ)),
    .host (hseg hostOps2_1 hostOps2_1_sub hostOps2_1_fresh (B8 m ρ)),
    .region (reg2 m ρ),
    .host (hseg hostOps3 hostOps3_sub hostOps3_fresh (B10 m ρ)),
    .region (reg3 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h => h)

abbrev Untouched (b : Ref sig .tc) : Prop :=
  b ∉ hostOps0_W ∧ b ∉ hostOps0_1_W ∧ b ∉ hostOps0_2_W ∧ b ≠ main_v9 ∧ b ∉ hostOps1_W ∧ b ∉ hostOps1_1_W ∧ b ≠ main_v15
    ∧ b ∉ hostOps2_W ∧ b ∉ hostOps2_1_W ∧ b ≠ main_v21 ∧ b ∉ hostOps3_W ∧ b ≠ main_v32_0 ∧ b ≠ main_v32_1

/-- An array that no operation of the main function writes holds its launch contents at every boundary. -/
theorem kept (c : Dev nD) (b : Ref sig .tc) (h : Untouched b) :
    B1 m ρ c (Proc.devRef .tc b) = m ((c : Thread nD τ).loc b) ∧ B2 m ρ c (Proc.devRef .tc b) = m ((c : Thread nD τ).loc b) ∧ B3 m ρ c (Proc.devRef .tc b) = m ((c : Thread nD τ).loc b)
    ∧ B6 m ρ c (Proc.devRef .tc b) = m ((c : Thread nD τ).loc b) ∧ B9 m ρ c (Proc.devRef .tc b) = m ((c : Thread nD τ).loc b) ∧ B10 m ρ c (Proc.devRef .tc b) = m ((c : Thread nD τ).loc b)
    ∧ B11 m ρ c (Proc.devRef .tc b) = m ((c : Thread nD τ).loc b) ∧ B12 m ρ c (Proc.devRef .tc b) = m ((c : Thread nD τ).loc b) := by
  obtain ⟨h0, h01, h02, o9, h1, h11, o15, h2, h21, o21, h3, o320, o321⟩ := h
  have e1 : B1 m ρ c (Proc.devRef .tc b) = m ((c : Thread nD τ).loc b) := StableHlo.after_of_writes_sub hostOps0 (B0 m ρ c) hostOps0_writes h0
  have e2 : B2 m ρ c (Proc.devRef .tc b) = m ((c : Thread nD τ).loc b) := (StableHlo.after_of_writes_sub hostOps0_1 (B1 m ρ c) hostOps0_1_writes h01).trans e1
  have e3 : B3 m ρ c (Proc.devRef .tc b) = m ((c : Thread nD τ).loc b) := (StableHlo.after_of_writes_sub hostOps0_2 (B2 m ρ c) hostOps0_2_writes h02).trans e2
  have e6 : B6 m ρ c (Proc.devRef .tc b) = m ((c : Thread nD τ).loc b) := (StableHlo.after_of_writes_sub hostOps1_1 (B5 m ρ c) hostOps1_1_writes h11).trans
    ((StableHlo.after_of_writes_sub hostOps1 (B4 m ρ c) hostOps1_writes h1).trans ((B4_keep m ρ c b o9).trans e3))
  have e9 : B9 m ρ c (Proc.devRef .tc b) = m ((c : Thread nD τ).loc b) := (StableHlo.after_of_writes_sub hostOps2_1 (B8 m ρ c) hostOps2_1_writes h21).trans
    ((StableHlo.after_of_writes_sub hostOps2 (B7 m ρ c) hostOps2_writes h2).trans ((B7_keep m ρ c b o15).trans e6))
  have e10 : B10 m ρ c (Proc.devRef .tc b) = m ((c : Thread nD τ).loc b) := (B10_keep m ρ c b o21).trans e9
  have e11 : B11 m ρ c (Proc.devRef .tc b) = m ((c : Thread nD τ).loc b) := (StableHlo.after_of_writes_sub hostOps3 (B10 m ρ c) hostOps3_writes h3).trans e10
  exact ⟨e1, e2, e3, e6, e9, e10, e11, (B12_keep m ρ c b o320 o321).trans e11⟩

theorem kept_arg (mem : (ℓ : Loc nD τ sig) → Buf (Elt F) ℓ) (c : Dev nD)
    (h : ∀ b ∈ Pipeline.ucRefs τ sig, mem (((c : Thread nD τ)).1, b) = B12 m ρ c b) (b : Ref sig .tc)
    (hs : ¬ (Proc.devRef .tc b : DevRef τ sig).isScoped := by decide) (hu : Untouched b := by decide) :
    mem ((c.tc : Thread nD τ).loc b) = m ((c.tc : Thread nD τ).loc b) :=
  (h _ (mem_uc b hs)).trans (kept m ρ c b hu).2.2.2.2.2.2.2

end Cert.Kernel.Hand

end
-- ==== Proof.KIBody0.lean ====
import proofs.«423125_j18107582120449_1_alg».proof.Proof.Gen.KernelIdeal.Launch
import proofs.«423125_j18107582120449_1_alg».proof.Proof.Gen.KernelIdeal.Skeleton
import proofs.«423125_j18107582120449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S1000x256 := Rect.unit (s := S1000x256) ![0, 0] S1000x256.size inb_S1000x256_S1000x256_0_0

abbrev r0_in : Rect S1000x512 := Rect.unit (s := S1000x512) ![0, 0] S1000x512.size inb_S1000x512_S1000x512_0_0

abbrev r0_mat1 : Rect S512x256 := Rect.unit (s := S512x256) ![0, 0] S512x256.size inb_S512x256_S512x256_0_0

abbrev r0_mat : Rect S256x256 := Rect.unit (s := S256x256) ![0, 0] S256x256.size inb_S256x256_S256x256_0_0

abbrev r0_vec : Rect S256 := Rect.unit (s := S256) ![0] S256.size inb_S256_S256_0

def out0_9 (x0 : Vec F S1000x512 .f32) (x1 : Vec F S512x256 .f32) (x2 : Vec F S256 .f32) (x3 : Vec F S256 .f32) (x4 : Vec F S256 .f32) (x5 : Vec F S256 .f32) (x6 : Vec F S256 .f32) (x7 : Vec F S256x256 .f32) (x8 : Vec F S256 .f32) : Vec F S1000x256 .f32 :=
  View.canon [⟨r0_out, k0_pay1 (View.ld x0 r0_in) (View.ld x1 r0_mat1) (View.ld x2 r0_vec) (View.ld x6 r0_vec) (View.ld x3 r0_vec) (View.ld x5 r0_vec) (View.ld x4 r0_vec) (View.ld x7 r0_mat) (View.ld x8 r0_vec)⟩]

theorem cover0_9 (p0 : Vec F S1000x256 .f32) (y : S1000x256.Idx) :
    ∃ pc ∈ ([⟨r0_out, p0⟩] : List (View.Piece (Elt F) S1000x256 .f32)), y ∈ pc.1.set :=
  View.cover_of_tiled [⟨r0_out, p0⟩] S1000x256.size (by rfl) y

set_option maxHeartbeats 1000000 in

theorem sound_kernel0 (c : Dev nD) (E : Set ℕ) (i : grid0.Coords) (arg1 : Memref sig .tc .vmem S1000x512 .f32) (harg1 : arg1.IsWhole) (arg2 : Memref sig .tc .vmem S512x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S1000x256 .f32) (harg10 : arg10.IsWhole)
    (x0 : Vec F S1000x512 .f32) (x1 : Vec F S512x256 .f32) (x2 : Vec F S256 .f32) (x3 : Vec F S256 .f32) (x4 : Vec F S256 .f32) (x5 : Vec F S256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem after0 (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t ∧ (dat0 V c).after 7 t = iblk0 V c 7 t ∧ (dat0 V c).after 8 t = iblk0 V c 8 t ∧ (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by
  and_intros <;> dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) :=
  (after0 V c t).2.2.2.2.2.2.2.2.2

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) := by
  and_intros <;> intro d <;>
    exact ((dat0 V c).before_in_eq_fetched _ rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ bigSep Finset.univ fun w : Fin cfg0.W => iprop(∃ d, owns (c : Thread nD τ) ((cfg0.win w).stage (cfg0.slots t w)) fullShare ((dat0 V c).before w t d)))
    ⊢ wp frame (wpE (defs₀ (F := F)) Variants.none c none) Set.univ (bodyAt0 t) (fun _ =>
      iprop((dat0 V c).Φ t.succ ∗ (dat0 V c).owesAt () t.succ
        ∗ bigSep Finset.univ fun w : Fin cfg0.W => owns (c : Thread nD τ) ((cfg0.win w).stage (cfg0.slots t w)) fullShare ((dat0 V c).after w t))) := by
  rw [bigSep_W0, bigSep_W0]
  simp only [before0 V c t, after0 V c t]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  iframe H0 H1 H2 H3 H4 H5 H6 H7 H8
  isplitl [H9]; · iexists _; iexact H9
  iintro H
  iframe HΦ Ho
  iexact H

theorem body_obligation0 (c : Dev nD) : BodyObligation (dat0 (F := F) V c) (defs₀ (F := F)) Variants.none () Set.univ :=
  fun t => sound_body0 V c t

end Cert.KernelIdeal.Hand

end
-- ==== Proof.KIBody1.lean ====
import proofs.«423125_j18107582120449_1_alg».proof.Proof.Gen.KernelIdeal.Launch
import proofs.«423125_j18107582120449_1_alg».proof.Proof.Gen.KernelIdeal.Skeleton
import proofs.«423125_j18107582120449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_out : Rect S1000x256 := Rect.unit (s := S1000x256) ![0, 0] S1000x256.size inb_S1000x256_S1000x256_0_0

abbrev r1_mat : Rect S256x256 := Rect.unit (s := S256x256) ![0, 0] S256x256.size inb_S256x256_S256x256_0_0

abbrev r1_vec : Rect S256 := Rect.unit (s := S256) ![0] S256.size inb_S256_S256_0

def out1_9 (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) : Vec F S1000x256 .f32 :=
  View.canon [⟨r1_out, k1_pay1 (View.ld x0 r1_out) (View.ld x1 r1_mat) (View.ld x2 r1_vec) (View.ld x6 r1_vec) (View.ld x3 r1_vec) (View.ld x5 r1_vec) (View.ld x4 r1_vec) (View.ld x7 r1_mat) (View.ld x8 r1_vec)⟩]

theorem cover1_9 (p0 : Vec F S1000x256 .f32) (y : S1000x256.Idx) :
    ∃ pc ∈ ([⟨r1_out, p0⟩] : List (View.Piece (Elt F) S1000x256 .f32)), y ∈ pc.1.set :=
  View.cover_of_tiled [⟨r1_out, p0⟩] S1000x256.size (by rfl) y

set_option maxHeartbeats 1000000 in

theorem sound_kernel1 (c : Dev nD) (E : Set ℕ) (i : grid1.Coords) (arg1 : Memref sig .tc .vmem S1000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S1000x256 .f32) (harg10 : arg10.IsWhole)
    (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t ∧ (dat1 V c).after 7 t = iblk1 V c 7 t ∧ (dat1 V c).after 8 t = iblk1 V c 8 t ∧ (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by
  and_intros <;> dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) :=
  (after1 V c t).2.2.2.2.2.2.2.2.2

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) := by
  and_intros <;> intro d <;>
    exact ((dat1 V c).before_in_eq_fetched _ rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) (fun _ =>
      iprop((dat1 V c).Φ t.succ ∗ (dat1 V c).owesAt () t.succ
        ∗ bigSep Finset.univ fun w : Fin cfg1.W => owns (c : Thread nD τ) ((cfg1.win w).stage (cfg1.slots t w)) fullShare ((dat1 V c).after w t))) := by
  rw [bigSep_W1, bigSep_W1]
  simp only [before1 V c t, after1 V c t]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  iframe H0 H1 H2 H3 H4 H5 H6 H7 H8
  isplitl [H9]; · iexists _; iexact H9
  iintro H
  iframe HΦ Ho
  iexact H

theorem body_obligation1 (c : Dev nD) : BodyObligation (dat1 (F := F) V c) (defs₀ (F := F)) Variants.none () Set.univ :=
  fun t => sound_body1 V c t

end Cert.KernelIdeal.Hand

end
-- ==== Proof.KIBody2.lean ====
import proofs.«423125_j18107582120449_1_alg».proof.Proof.Gen.KernelIdeal.Launch
import proofs.«423125_j18107582120449_1_alg».proof.Proof.Gen.KernelIdeal.Skeleton
import proofs.«423125_j18107582120449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_out : Rect S1000x256 := Rect.unit (s := S1000x256) ![0, 0] S1000x256.size inb_S1000x256_S1000x256_0_0

abbrev r2_mat : Rect S256x256 := Rect.unit (s := S256x256) ![0, 0] S256x256.size inb_S256x256_S256x256_0_0

abbrev r2_vec : Rect S256 := Rect.unit (s := S256) ![0] S256.size inb_S256_S256_0

def out2_9 (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) : Vec F S1000x256 .f32 :=
  View.canon [⟨r2_out, k2_pay1 (View.ld x0 r2_out) (View.ld x1 r2_mat) (View.ld x2 r2_vec) (View.ld x6 r2_vec) (View.ld x3 r2_vec) (View.ld x5 r2_vec) (View.ld x4 r2_vec) (View.ld x7 r2_mat) (View.ld x8 r2_vec)⟩]

theorem cover2_9 (p0 : Vec F S1000x256 .f32) (y : S1000x256.Idx) :
    ∃ pc ∈ ([⟨r2_out, p0⟩] : List (View.Piece (Elt F) S1000x256 .f32)), y ∈ pc.1.set :=
  View.cover_of_tiled [⟨r2_out, p0⟩] S1000x256.size (by rfl) y

set_option maxHeartbeats 1000000 in

theorem sound_kernel2 (c : Dev nD) (E : Set ℕ) (i : grid2.Coords) (arg1 : Memref sig .tc .vmem S1000x256 .f32) (harg1 : arg1.IsWhole) (arg2 : Memref sig .tc .vmem S256x256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S1000x256 .f32) (harg10 : arg10.IsWhole)
    (x0 : Vec F S1000x256 .f32) (x1 : Vec F S256x256 .f32) (x2 : Vec F S256 .f32) (x3 : Vec F S256 .f32) (x4 : Vec F S256 .f32) (x5 : Vec F S256 .f32) (x6 : Vec F S256 .f32) (x7 : Vec F S256x256 .f32) (x8 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t ∧ (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by
  and_intros <;> dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) :=
  (after2 V c t).2.2.2.2.2.2.2.2.2

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) := by
  and_intros <;> intro d <;>
    exact ((dat2 V c).before_in_eq_fetched _ rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ bigSep Finset.univ fun w : Fin cfg2.W => iprop(∃ d, owns (c : Thread nD τ) ((cfg2.win w).stage (cfg2.slots t w)) fullShare ((dat2 V c).before w t d)))
    ⊢ wp frame (wpE (defs₀ (F := F)) Variants.none c none) Set.univ (bodyAt2 t) (fun _ =>
      iprop((dat2 V c).Φ t.succ ∗ (dat2 V c).owesAt () t.succ
        ∗ bigSep Finset.univ fun w : Fin cfg2.W => owns (c : Thread nD τ) ((cfg2.win w).stage (cfg2.slots t w)) fullShare ((dat2 V c).after w t))) := by
  rw [bigSep_W2, bigSep_W2]
  simp only [before2 V c t, after2 V c t]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  iintro H
  iframe HΦ Ho
  iexact H

theorem body_obligation2 (c : Dev nD) : BodyObligation (dat2 (F := F) V c) (defs₀ (F := F)) Variants.none () Set.univ :=
  fun t => sound_body2 V c t

end Cert.KernelIdeal.Hand

end
-- ==== Proof.KIBody3.lean ====
import proofs.«423125_j18107582120449_1_alg».proof.Proof.Gen.KernelIdeal.Launch
import proofs.«423125_j18107582120449_1_alg».proof.Proof.Gen.KernelIdeal.Skeleton
import proofs.«423125_j18107582120449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S64x768 := Rect.unit (s := S64x768) ![0, 0] S64x768.size inb_S64x768_S64x768_0_0
abbrev r3_1 : Rect S768x64 := Rect.unit (s := S768x64) ![0, 0] S768x64.size inb_S768x64_S768x64_0_0
abbrev r3_2 : Rect S64 := Rect.unit (s := S64) ![0] S64.size inb_S64_S64_0
abbrev r3_3 : Rect S64x2 := Rect.unit (s := S64x2) ![0, 0] S64x2.size inb_S64x2_S64x2_0_0
abbrev r3_4 : Rect S2 := Rect.unit (s := S2) ![0] S2.size inb_S2_S2_0

def out3_5 (x0 : Vec F S64x768 .f32) (x1 : Vec F S768x64 .f32) (x2 : Vec F S64 .f32) (x3 : Vec F S64x2 .f32) (x4 : Vec F S2 .f32) : Vec F S64x2 .f32 :=
  View.canon [⟨r3_3, k3_pay1 (View.ld x0 r3_0) (View.ld x1 r3_1) (View.ld x2 r3_2) (View.ld x3 r3_3) (View.ld x4 r3_4)⟩]

theorem cover3_5 (p0 : Vec F S64x2 .f32) (y : S64x2.Idx) :
    ∃ pc ∈ ([⟨r3_3, p0⟩] : List (View.Piece (Elt F) S64x2 .f32)), y ∈ pc.1.set :=
  View.cover_of_tiled [⟨r3_3, p0⟩] S64x2.size (by rfl) y

def out3_6 (x0 : Vec F S64x768 .f32) (x1 : Vec F S768x64 .f32) (x2 : Vec F S64 .f32) (x3 : Vec F S64x2 .f32) (x4 : Vec F S2 .f32) : Vec F S64x2 .f32 :=
  View.canon [⟨r3_3, k3_pay2 (View.ld x0 r3_0) (View.ld x1 r3_1) (View.ld x2 r3_2) (View.ld x3 r3_3) (View.ld x4 r3_4)⟩]

theorem cover3_6 (p0 : Vec F S64x2 .f32) (y : S64x2.Idx) :
    ∃ pc ∈ ([⟨r3_3, p0⟩] : List (View.Piece (Elt F) S64x2 .f32)), y ∈ pc.1.set :=
  View.cover_of_tiled [⟨r3_3, p0⟩] S64x2.size (by rfl) y

set_option maxHeartbeats 1000000 in

theorem sound_kernel3 (c : Dev nD) (E : Set ℕ) (i : grid3.Coords) (arg1 : Memref sig .tc .vmem S64x768 .f32) (harg1 : arg1.IsWhole) (arg2 : Memref sig .tc .vmem S768x64 .f32) (harg2 : arg2.IsWhole) (arg3 : Memref sig .tc .vmem S64 .f32) (harg3 : arg3.IsWhole) (arg4 : Memref sig .tc .vmem S64x2 .f32) (harg4 : arg4.IsWhole) (arg5 : Memref sig .tc .vmem S2 .f32) (harg5 : arg5.IsWhole) (arg6 : Memref sig .tc .vmem S64x2 .f32) (harg6 : arg6.IsWhole) (arg7 : Memref sig .tc .vmem S64x2 .f32) (harg7 : arg7.IsWhole)
    (x0 : Vec F S64x768 .f32) (x1 : Vec F S768x64 .f32) (x2 : Vec F S64 .f32) (x3 : Vec F S64x2 .f32) (x4 : Vec F S2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4)) -∗ K ⟨⟩))
      ⊢ wp frame (wpE (defs₀ (F := F)) Variants.none c none) E (cc3__final_mlp_kernel i arg1 harg1 arg2 harg2 arg3 harg3 arg4 harg4 arg5 harg5 arg6 harg6 arg7 harg7) K := by
  simp only [cc3__final_mlp_kernel_eq_skeleton]; unfold cc3__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  iexists _; isplitr
  swap; · iexact H6
  ipureintro
  exact View.read_writes_eq_canon _ _ _ (cover3_6 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
  Φ _ := Pipeline.ΦA spec3 c
  q _ := fullShare
  owed _ := 0

theorem after3 (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = out3_5 (iblk3 V c 0 t) (iblk3 V c 1 t) (iblk3 V c 2 t) (iblk3 V c 3 t) (iblk3 V c 4 t) ∧ (dat3 V c).after 6 t = out3_6 (iblk3 V c 0 t) (iblk3 V c 1 t) (iblk3 V c 2 t) (iblk3 V c 3 t) (iblk3 V c 4 t) := by
  and_intros <;> dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) :=
  (after3 V c t).2.2.2.2.2.1
theorem after3_6 (c : Dev nD) (t : Fin cfg3.N) : (dat3 V c).after 6 t = out3_6 (iblk3 V c 0 t) (iblk3 V c 1 t) (iblk3 V c 2 t) (iblk3 V c 3 t) (iblk3 V c 4 t) :=
  (after3 V c t).2.2.2.2.2.2

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) := by
  and_intros <;> intro d <;>
    exact ((dat3 V c).before_in_eq_fetched _ rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ bigSep Finset.univ fun w : Fin cfg3.W => iprop(∃ d, owns (c : Thread nD τ) ((cfg3.win w).stage (cfg3.slots t w)) fullShare ((dat3 V c).before w t d)))
    ⊢ wp frame (wpE (defs₀ (F := F)) Variants.none c none) Set.univ (bodyAt3 t) (fun _ =>
      iprop((dat3 V c).Φ t.succ ∗ (dat3 V c).owesAt () t.succ
        ∗ bigSep Finset.univ fun w : Fin cfg3.W => owns (c : Thread nD τ) ((cfg3.win w).stage (cfg3.slots t w)) fullShare ((dat3 V c).after w t))) := by
  rw [bigSep_W3, bigSep_W3]
  simp only [before3 V c t, after3 V c t]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  isplitl [H6]; · iexists _; iexact H6
  iintro H
  iframe HΦ Ho
  iexact H

theorem body_obligation3 (c : Dev nD) : BodyObligation (dat3 (F := F) V c) (defs₀ (F := F)) Variants.none () Set.univ :=
  fun t => sound_body3 V c t

end Cert.KernelIdeal.Hand

end
-- ==== Proof.KIRun.lean ====
import proofs.«423125_j18107582120449_1_alg».proof.Proof.Gen.KernelIdeal.Regions
import proofs.«423125_j18107582120449_1_alg».proof.Proof.KIBody0
import proofs.«423125_j18107582120449_1_alg».proof.Proof.KIBody1
import proofs.«423125_j18107582120449_1_alg».proof.Proof.KIBody2
import proofs.«423125_j18107582120449_1_alg».proof.Proof.KIBody3

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev B0 : Dev nD → Valuation τ sig (Elt F) := fun c b => (s₀ m ρ).mem ((c : Dev nD), b)

abbrev B1 : Dev nD → Valuation τ sig (Elt F) := fun c => StableHlo.after hostOps0 (B0 m ρ c)

abbrev B2 : Dev nD → Valuation τ sig (Elt F) := fun c => StableHlo.after hostOps0_1 (B1 m ρ c)

abbrev B3 : Dev nD → Valuation τ sig (Elt F) := fun c => StableHlo.after hostOps0_2 (B2 m ρ c)

abbrev E3 : (c : Dev nD) → (b : Ref sig .tc) → Buf (Elt F) ((c : Thread nD τ).loc b) := fun c b => B3 m ρ c b

def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb

theorem B4_keep (c : Dev nD) (b : Ref sig .tc) (hb : b ≠ main_v9) :
    B4 m ρ c (Proc.devRef .tc b) = B3 m ρ c (Proc.devRef .tc b) := by
  by_cases h : ∃ w, Pipeline.arrRef spec0 w = b
  · obtain ⟨w, rfl⟩ := h
    have hin : (cfg0.win w).isOut = false := by
      revert hb; revert w; decide
    exact (B4_arr m ρ c w).trans (((dat0 (E3 m ρ) c).arrAt_in w hin _).trans rfl)
  · exact B4_of_ne m ρ c b fun w e => h ⟨w, e⟩

abbrev B5 : Dev nD → Valuation τ sig (Elt F) := fun c => StableHlo.after hostOps1 (B4 m ρ c)

abbrev B6 : Dev nD → Valuation τ sig (Elt F) := fun c => StableHlo.after hostOps1_1 (B5 m ρ c)

abbrev E6 : (c : Dev nD) → (b : Ref sig .tc) → Buf (Elt F) ((c : Thread nD τ).loc b) := fun c b => B6 m ρ c b

def B7 (c : Dev nD) : Valuation τ sig (Elt F) :=
  Pipeline.withArrays spec1 c (B6 m ρ c) fun w => (dat1 (E6 m ρ) c).arrAt w cfg1.N
theorem B7_arr (c : Dev nD) (w : Fin cfg1.W) :
    B7 m ρ c (Proc.devRef .tc (Pipeline.arrRef spec1 w)) = (dat1 (E6 m ρ) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m ρ c (Proc.devRef .tc b) = B6 m ρ c (Proc.devRef .tc b) := by
  unfold B7; exact Pipeline.withArrays_of_ne spec1 c _ _ b hb

theorem B7_keep (c : Dev nD) (b : Ref sig .tc) (hb : b ≠ main_v15) :
    B7 m ρ c (Proc.devRef .tc b) = B6 m ρ c (Proc.devRef .tc b) := by
  by_cases h : ∃ w, Pipeline.arrRef spec1 w = b
  · obtain ⟨w, rfl⟩ := h
    have hin : (cfg1.win w).isOut = false := by
      revert hb; revert w; decide
    exact (B7_arr m ρ c w).trans (((dat1 (E6 m ρ) c).arrAt_in w hin _).trans rfl)
  · exact B7_of_ne m ρ c b fun w e => h ⟨w, e⟩

abbrev B8 : Dev nD → Valuation τ sig (Elt F) := fun c => StableHlo.after hostOps2 (B7 m ρ c)

abbrev B9 : Dev nD → Valuation τ sig (Elt F) := fun c => StableHlo.after hostOps2_1 (B8 m ρ c)

abbrev E9 : (c : Dev nD) → (b : Ref sig .tc) → Buf (Elt F) ((c : Thread nD τ).loc b) := fun c b => B9 m ρ c b

def B10 (c : Dev nD) : Valuation τ sig (Elt F) :=
  Pipeline.withArrays spec2 c (B9 m ρ c) fun w => (dat2 (E9 m ρ) c).arrAt w cfg2.N
theorem B10_arr (c : Dev nD) (w : Fin cfg2.W) :
    B10 m ρ c (Proc.devRef .tc (Pipeline.arrRef spec2 w)) = (dat2 (E9 m ρ) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m ρ c (Proc.devRef .tc b) = B9 m ρ c (Proc.devRef .tc b) := by
  unfold B10; exact Pipeline.withArrays_of_ne spec2 c _ _ b hb

theorem B10_keep (c : Dev nD) (b : Ref sig .tc) (hb : b ≠ main_v21) :
    B10 m ρ c (Proc.devRef .tc b) = B9 m ρ c (Proc.devRef .tc b) := by
  by_cases h : ∃ w, Pipeline.arrRef spec2 w = b
  · obtain ⟨w, rfl⟩ := h
    have hin : (cfg2.win w).isOut = false := by
      revert hb; revert w; decide
    exact (B10_arr m ρ c w).trans (((dat2 (E9 m ρ) c).arrAt_in w hin _).trans rfl)
  · exact B10_of_ne m ρ c b fun w e => h ⟨w, e⟩

abbrev B11 : Dev nD → Valuation τ sig (Elt F) := fun c => StableHlo.after hostOps3 (B10 m ρ c)

abbrev E11 : (c : Dev nD) → (b : Ref sig .tc) → Buf (Elt F) ((c : Thread nD τ).loc b) := fun c b => B11 m ρ c b

def B12 (c : Dev nD) : Valuation τ sig (Elt F) :=
  Pipeline.withArrays spec3 c (B11 m ρ c) fun w => (dat3 (E11 m ρ) c).arrAt w cfg3.N
theorem B12_arr (c : Dev nD) (w : Fin cfg3.W) :
    B12 m ρ c (Proc.devRef .tc (Pipeline.arrRef spec3 w)) = (dat3 (E11 m ρ) c).arrAt w cfg3.N := by
  unfold B12; exact Pipeline.withArrays_arr spec3 launch3.win.arr_inj c _ _ w
theorem B12_of_ne (c : Dev nD) (b : Ref sig .tc) (hb : ∀ w, Pipeline.arrRef spec3 w ≠ b) :
    B12 m ρ c (Proc.devRef .tc b) = B11 m ρ c (Proc.devRef .tc b) := by
  unfold B12; exact Pipeline.withArrays_of_ne spec3 c _ _ b hb

theorem B12_keep (c : Dev nD) (b : Ref sig .tc) (hb : b ≠ main_v32_0) (hb' : b ≠ main_v32_1) :
    B12 m ρ c (Proc.devRef .tc b) = B11 m ρ c (Proc.devRef .tc b) := by
  by_cases h : ∃ w, Pipeline.arrRef spec3 w = b
  · obtain ⟨w, rfl⟩ := h
    have hin : (cfg3.win w).isOut = false := by
      revert hb hb'; revert w; decide
    exact (B12_arr m ρ c w).trans (((dat3 (E11 m ρ) c).arrAt_in w hin _).trans rfl)
  · exact B12_of_ne m ρ c b fun w e => h ⟨w, e⟩

def pdats : (p : Fin 4) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E6 m ρ) c
  | ⟨2, _⟩ => fun c => dat2 (E9 m ρ) c
  | ⟨3, _⟩ => fun c => dat3 (E11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (B12 m ρ c) ∗ ∃ r, prngReg c r)

set_option backward.isDefEq.respectTransparency.types false in
/-- A kernel call as one segment of the main function, from the contents `Bin` to the contents `Bout`. -/
def regOf (p : Fin 4) (hw : Pipeline.WinFacts (pcfgs (F := F) p).spec) (harr : ∀ w, ((pcfgs (F := F) p).spec w).arr.IsWhole)
    (bp : ∀ w : Fin (Pipeline.pin (pcfgs (F := F)) adm p).W, 0 < ((Pipeline.pin (pcfgs (F := F)) adm p).spec w).block.numel)
    (sw : ∀ (w : Fin (Pipeline.pin (pcfgs (F := F)) adm p).W) (s : Fin ((Pipeline.pin (pcfgs (F := F)) adm p).spec w).nbuf), (((Pipeline.pin (pcfgs (F := F)) adm p).spec w).stage s).IsWhole)
    (hbody : ∀ c, Pipeline.BodyObligationLoose (pdats m ρ p c) defs₀ 𝒱₀ () Set.univ)
    (howed : ∀ c t, (pdats m ρ p c).owed t = 0) (hrec : ∀ (c : Dev nD) x, x ∈ (pdats m ρ p c).recorded 0)
    (hq : ∀ (c : Dev nD) w, (pdats m ρ p c).q w = fullShare)
    (Bin Bout : Dev nD → Valuation τ sig (Elt F)) (post : Dev nD → sProp 𝕄)
    (hpre : ∀ c : Dev nD, (BI.emp : sProp 𝕄) ⊢ Pipeline.prefHeld (pcfgs (F := F) p).pre c (fun _ => fullShare) (adm p).1)
    (hΦ : ∀ c t, (pdats m ρ p c).Φ t = Pipeline.ΦA (Pipeline.pin (pcfgs (F := F)) adm p).spec c)
    (hA : ∀ (c : Dev nD) w, (pdats m ρ p c).A w = Bin c (Proc.devRef .tc (Pipeline.arrRef (pcfgs (F := F) p).spec w)))
    (hF : ∀ (c : Dev nD) w, Bout c (Proc.devRef .tc (Pipeline.arrRef (Pipeline.pin (pcfgs (F := F)) adm p).spec w)) = (pdats m ρ p c).arrAt w (Pipeline.pin (pcfgs (F := F)) adm p).N)
    (hne : ∀ (c : Dev nD) (b : Ref sig .tc), (∀ w, Pipeline.arrRef (Pipeline.pin (pcfgs (F := F)) adm p).spec w ≠ b) → Bout c (Proc.devRef .tc b) = Bin c (Proc.devRef .tc b))
    (hpost : ∀ c : Dev nD, iprop(StableHlo.held (c : Thread nD τ) (Pipeline.ucRefs τ sig) (Bout c) ∗ R c) ⊢ post c) :
    Pipeline.RegionSeg (pcfgs (F := F)) adm (pdats m ρ) () defs₀ 𝒱₀ L lv p where
  win := hw.to₀
  block_pos := bp
  stage_whole := sw
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Bin c) ∗ R c)
  post := post
  X c := iprop(∃ r, prngReg c r)
  Y c := iprop(∃ r, prngReg c r)
  Z c := Pipeline.unscopedRest (Ix := Unit) (Name := ℕ) (U := UR sig nD τ) (Lvl := ℕ) (pcfgs (F := F) p).spec c (fun b => Bin c b)
  hentry c := by
    rw [Pipeline.ownSems0_none]
    have hsplit := Pipeline.arrays_of_unscopedBufs (p := p) (pcfgs (F := F)) adm (pdats m ρ) hw harr c
      ((pdats m ρ p c).share_full (hq c)) (fun b => Bin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      icases HO with ⟨%W, HO⟩; iexists W; isplitr; · ipureintro; exact fun x _ => Or.inl (hrec c x)
      rw [howed c 0]; iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hw harr c (pdats m ρ) ((pdats m ρ p c).share_full (hq c)) (fun b => Bin c b) (fun b => Bout c b)
      ((pdats m ρ p c).arrAt · (Pipeline.pin (pcfgs (F := F)) adm p).N) (fun w => (hF c w).symm)
      (fun b hb => hne c b fun w e => hb (Finset.mem_image.mpr ⟨w, Finset.mem_univ _, e⟩))
    rw [Pipeline.unscopedBufs_held] at hjoin
    iintro ⟨Ha, HO, HY, Hrest⟩
    imodintro
    iapply (hpost c)
    isplitl [Ha Hrest]
    · iapply hjoin; isplitl [Ha] <;> iassumption
    isplitl [HY]; · iexact HY
    unfold Pipeline.Dat.owesAt Pipeline.owesWithin
    icases HO with ⟨%W, -, HO⟩; iexists W; rw [howed c]; iexact HO

set_option backward.isDefEq.respectTransparency.types false in
def reg0 : Pipeline.RegionSeg (pcfgs (F := F)) adm (pdats m ρ) () defs₀ 𝒱₀ L lv 0 :=
  regOf m ρ 0 launch0.win launch0.arr_whole launch0.block_pos launch0.stage_whole (fun c => (body_obligation0 (E3 m ρ) c).loose)
    (fun _ _ => rfl) (fun _ _ => trivial) (fun _ _ => rfl) (B3 m ρ) (B4 m ρ) (fun c => iprop(StableHlo.held (c : Thread nD τ) (Pipeline.ucRefs τ sig) (B4 m ρ c) ∗ R c))
    (fun c => by unfold Pipeline.prefHeld; rw [show (Finset.univ : Finset (Fin 0)) = ∅ from rfl, BI.bigSep_empty])
    (fun _ _ => rfl) (fun _ _ => rfl) (B4_arr m ρ) (B4_of_ne m ρ) (fun _ => .rfl)

set_option backward.isDefEq.respectTransparency.types false in
def reg1 : Pipeline.RegionSeg (pcfgs (F := F)) adm (pdats m ρ) () defs₀ 𝒱₀ L lv 1 :=
  regOf m ρ 1 launch1.win launch1.arr_whole launch1.block_pos launch1.stage_whole (fun c => (body_obligation1 (E6 m ρ) c).loose)
    (fun _ _ => rfl) (fun _ _ => trivial) (fun _ _ => rfl) (B6 m ρ) (B7 m ρ) (fun c => iprop(StableHlo.held (c : Thread nD τ) (Pipeline.ucRefs τ sig) (B7 m ρ c) ∗ R c))
    (fun c => by unfold Pipeline.prefHeld; rw [show (Finset.univ : Finset (Fin 0)) = ∅ from rfl, BI.bigSep_empty])
    (fun _ _ => rfl) (fun _ _ => rfl) (B7_arr m ρ) (B7_of_ne m ρ) (fun _ => .rfl)

set_option backward.isDefEq.respectTransparency.types false in
def reg2 : Pipeline.RegionSeg (pcfgs (F := F)) adm (pdats m ρ) () defs₀ 𝒱₀ L lv 2 :=
  regOf m ρ 2 launch2.win launch2.arr_whole launch2.block_pos launch2.stage_whole (fun c => (body_obligation2 (E9 m ρ) c).loose)
    (fun _ _ => rfl) (fun _ _ => trivial) (fun _ _ => rfl) (B9 m ρ) (B10 m ρ) (fun c => iprop(StableHlo.held (c : Thread nD τ) (Pipeline.ucRefs τ sig) (B10 m ρ c) ∗ R c))
    (fun c => by unfold Pipeline.prefHeld; rw [show (Finset.univ : Finset (Fin 0)) = ∅ from rfl, BI.bigSep_empty])
    (fun _ _ => rfl) (fun _ _ => rfl) (B10_arr m ρ) (B10_of_ne m ρ) (fun _ => .rfl)

set_option backward.isDefEq.respectTransparency.types false in
def reg3 : Pipeline.RegionSeg (pcfgs (F := F)) adm (pdats m ρ) () defs₀ 𝒱₀ L lv 3 :=
  regOf m ρ 3 launch3.win launch3.arr_whole launch3.block_pos launch3.stage_whole (fun c => (body_obligation3 (E11 m ρ) c).loose)
    (fun _ _ => rfl) (fun _ _ => trivial) (fun _ _ => rfl) (B11 m ρ) (B12 m ρ) (fun c => iprop(Tₙ m ρ c ∗ ∃ W, owes (c : Thread nD τ) (0 : CellTallies nD τ sig Unit) W))
    (fun c => by unfold Pipeline.prefHeld; rw [show (Finset.univ : Finset (Fin 0)) = ∅ from rfl, BI.bigSep_empty])
    (fun _ _ => rfl) (fun _ _ => rfl) (B12_arr m ρ) (B12_of_ne m ρ) (fun c => by
      iintro ⟨H, Hp, HO⟩
      isplitl [H Hp]
      · isplitl [H]; · iexact H
        iexact Hp
      iexact HO)

abbrev segs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .host (hseg hostOps1_1 hostOps1_1_sub hostOps1_1_fresh (B5 m ρ)),
    .region (reg1 m ρ),
    .host (hseg hostOps2 hostOps2_sub hostOps2_fresh (B7 m ρ)),
    .host (hseg hostOps2_1 hostOps2_1_sub hostOps2_1_fresh (B8 m ρ)),
    .region (reg2 m ρ),
    .host (hseg hostOps3 hostOps3_sub hostOps3_fresh (B10 m ρ)),
    .region (reg3 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h => h)

abbrev Untouched (b : Ref sig .tc) : Prop :=
  b ∉ hostOps0_W ∧ b ∉ hostOps0_1_W ∧ b ∉ hostOps0_2_W ∧ b ≠ main_v9 ∧ b ∉ hostOps1_W ∧ b ∉ hostOps1_1_W ∧ b ≠ main_v15
    ∧ b ∉ hostOps2_W ∧ b ∉ hostOps2_1_W ∧ b ≠ main_v21 ∧ b ∉ hostOps3_W ∧ b ≠ main_v32_0 ∧ b ≠ main_v32_1

/-- An array that no operation of the main function writes holds its launch contents at every boundary. -/
theorem kept (c : Dev nD) (b : Ref sig .tc) (h : Untouched b) :
    B1 m ρ c (Proc.devRef .tc b) = m ((c : Thread nD τ).loc b) ∧ B2 m ρ c (Proc.devRef .tc b) = m ((c : Thread nD τ).loc b) ∧ B3 m ρ c (Proc.devRef .tc b) = m ((c : Thread nD τ).loc b)
    ∧ B6 m ρ c (Proc.devRef .tc b) = m ((c : Thread nD τ).loc b) ∧ B9 m ρ c (Proc.devRef .tc b) = m ((c : Thread nD τ).loc b) ∧ B10 m ρ c (Proc.devRef .tc b) = m ((c : Thread nD τ).loc b)
    ∧ B11 m ρ c (Proc.devRef .tc b) = m ((c : Thread nD τ).loc b) ∧ B12 m ρ c (Proc.devRef .tc b) = m ((c : Thread nD τ).loc b) := by
  obtain ⟨h0, h01, h02, o9, h1, h11, o15, h2, h21, o21, h3, o320, o321⟩ := h
  have e1 : B1 m ρ c (Proc.devRef .tc b) = m ((c : Thread nD τ).loc b) := StableHlo.after_of_writes_sub hostOps0 (B0 m ρ c) hostOps0_writes h0
  have e2 : B2 m ρ c (Proc.devRef .tc b) = m ((c : Thread nD τ).loc b) := (StableHlo.after_of_writes_sub hostOps0_1 (B1 m ρ c) hostOps0_1_writes h01).trans e1
  have e3 : B3 m ρ c (Proc.devRef .tc b) = m ((c : Thread nD τ).loc b) := (StableHlo.after_of_writes_sub hostOps0_2 (B2 m ρ c) hostOps0_2_writes h02).trans e2
  have e6 : B6 m ρ c (Proc.devRef .tc b) = m ((c : Thread nD τ).loc b) := (StableHlo.after_of_writes_sub hostOps1_1 (B5 m ρ c) hostOps1_1_writes h11).trans
    ((StableHlo.after_of_writes_sub hostOps1 (B4 m ρ c) hostOps1_writes h1).trans ((B4_keep m ρ c b o9).trans e3))
  have e9 : B9 m ρ c (Proc.devRef .tc b) = m ((c : Thread nD τ).loc b) := (StableHlo.after_of_writes_sub hostOps2_1 (B8 m ρ c) hostOps2_1_writes h21).trans
    ((StableHlo.after_of_writes_sub hostOps2 (B7 m ρ c) hostOps2_writes h2).trans ((B7_keep m ρ c b o15).trans e6))
  have e10 : B10 m ρ c (Proc.devRef .tc b) = m ((c : Thread nD τ).loc b) := (B10_keep m ρ c b o21).trans e9
  have e11 : B11 m ρ c (Proc.devRef .tc b) = m ((c : Thread nD τ).loc b) := (StableHlo.after_of_writes_sub hostOps3 (B10 m ρ c) hostOps3_writes h3).trans e10
  exact ⟨e1, e2, e3, e6, e9, e10, e11, (B12_keep m ρ c b o320 o321).trans e11⟩

theorem kept_arg (mem : (ℓ : Loc nD τ sig) → Buf (Elt F) ℓ) (c : Dev nD)
    (h : ∀ b ∈ Pipeline.ucRefs τ sig, mem (((c : Thread nD τ)).1, b) = B12 m ρ c b) (b : Ref sig .tc)
    (hs : ¬ (Proc.devRef .tc b : DevRef τ sig).isScoped := by decide) (hu : Untouched b := by decide) :
    mem ((c.tc : Thread nD τ).loc b) = m ((c.tc : Thread nD τ).loc b) :=
  (h _ (mem_uc b hs)).trans (kept m ρ c b hu).2.2.2.2.2.2.2

end Cert.KernelIdeal.Hand

end
-- ==== Proof.KIHost.lean ====
import proofs.«423125_j18107582120449_1_alg».proof.Proof.Gen.KernelIdeal.Launch
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

def srcRow (ei : IVec S2x400000 32) : IVec S400000 32 :=
  shapeCast S400000 (extractStridedSlice S1x400000 ![0, 0] ei slices_S2x400000_S1x400000_0_0) shapeCasts_S1x400000_S400000

def dstRow (ei : IVec S2x400000 32) : IVec S400000 32 :=
  shapeCast S400000 (extractStridedSlice S1x400000 ![1, 0] ei slices_S2x400000_S1x400000_1_0) shapeCasts_S1x400000_S400000

def hostTake512 (x : FVec F S50000x512 .f32) (src : IVec S400000 32) : FVec F S400000x512 .f32 :=
  have c : IVec S_ 32 := constantI S_ 32 0#32
  have v0 : IVec S400000 32 := broadcastInDim S400000 ![] bcast_S_S400000 c
  have v1 : IVec S400000 1 := cmpi .slt src v0
  have c_0 : IVec S_ 32 := constantI S_ 32 50000#32
  have v2 : IVec S400000 32 := broadcastInDim S400000 ![] bcast_S_S400000 c_0
  have v3 : IVec S400000 32 := addi src v2
  have v4 : IVec S400000 32 := select v1 v3 src
  have v5 : IVec S400000x1 32 := broadcastInDim S400000x1 ![0] bcast_S400000_S400000x1_0 v4
  have c_1 : IVec S1 32 := constantI S1 32 49999#32
  have c_2 : IVec S_ 32 := constantI S_ 32 0#32
  have v6 : IVec S400000x1 32 := broadcastInDim S400000x1 ![] bcast_S_S400000x1 c_2
  have v7 : IVec S400000x1 1 := cmpi .sge v5 v6
  have v8 : IVec S1x1 32 := broadcastInDim S1x1 ![1] bcast_S1_S1x1_1 c_1
  have v9 : IVec S400000x1 32 := broadcastInDim S400000x1 ![0, 1] bcast_S1x1_S400000x1_0_1 v8
  have v10 : IVec S400000x1 1 := cmpi .sle v5 v9
  have v11 : IVec S400000x1 1 := andi v7 v10
  have c_3 : IVec S_ 1 := constantI S_ 1 1#1
  have v12 : IVec S400000 1 := Host.reduce IntOp.andi v11 c_3 reducesTo_S400000x1_S400000_d1 h_S_
  have v13 : FVec F S400000x512 .f32 := Host.gather gather_S50000x512_S400000x1_S400000x512_1_0_n_n_0_1_1512 x v5
  have v14 : IVec S400000x512 1 := broadcastInDim S400000x512 ![0] bcast_S400000_S400000x512_0 v12
  have cst : FVec F S_ .f32 := constant S_ .f32 0x7FC00000#32
  have v15 : FVec F S400000x512 .f32 := broadcastInDim S400000x512 ![] bcast_S_S400000x512 cst
  select v14 v13 v15

def hostTake256 (x : FVec F S50000x256 .f32) (src : IVec S400000 32) : FVec F S400000x256 .f32 :=
  have c : IVec S_ 32 := constantI S_ 32 0#32
  have v0 : IVec S400000 32 := broadcastInDim S400000 ![] bcast_S_S400000 c
  have v1 : IVec S400000 1 := cmpi .slt src v0
  have c_0 : IVec S_ 32 := constantI S_ 32 50000#32
  have v2 : IVec S400000 32 := broadcastInDim S400000 ![] bcast_S_S400000 c_0
  have v3 : IVec S400000 32 := addi src v2
  have v4 : IVec S400000 32 := select v1 v3 src
  have v5 : IVec S400000x1 32 := broadcastInDim S400000x1 ![0] bcast_S400000_S400000x1_0 v4
  have c_1 : IVec S1 32 := constantI S1 32 49999#32
  have c_2 : IVec S_ 32 := constantI S_ 32 0#32
  have v6 : IVec S400000x1 32 := broadcastInDim S400000x1 ![] bcast_S_S400000x1 c_2
  have v7 : IVec S400000x1 1 := cmpi .sge v5 v6
  have v8 : IVec S1x1 32 := broadcastInDim S1x1 ![1] bcast_S1_S1x1_1 c_1
  have v9 : IVec S400000x1 32 := broadcastInDim S400000x1 ![0, 1] bcast_S1x1_S400000x1_0_1 v8
  have v10 : IVec S400000x1 1 := cmpi .sle v5 v9
  have v11 : IVec S400000x1 1 := andi v7 v10
  have c_3 : IVec S_ 1 := constantI S_ 1 1#1
  have v12 : IVec S400000 1 := Host.reduce IntOp.andi v11 c_3 reducesTo_S400000x1_S400000_d1 h_S_
  have v13 : FVec F S400000x256 .f32 := Host.gather gather_S50000x256_S400000x1_S400000x256_1_0_n_n_0_1_1256 x v5
  have v14 : IVec S400000x256 1 := broadcastInDim S400000x256 ![0] bcast_S400000_S400000x256_0 v12
  have cst : FVec F S_ .f32 := constant S_ .f32 0x7FC00000#32
  have v15 : FVec F S400000x256 .f32 := broadcastInDim S400000x256 ![] bcast_S_S400000x256 cst
  select v14 v13 v15

def hostAgg512 (x : FVec F S50000x512 .f32) (dst : IVec S400000 32) (g : FVec F S400000x512 .f32) : FVec F S50000x512 .f32 :=
  addf x (Host.scatterAdd scatter_S50000x512_S400000x1_S400000x512_1_0_0_1 (broadcastInDim S50000x512 ![] bcast_S_S50000x512 (constant S_ .f32 0x00000000#32)) (broadcastInDim S400000x1 ![0] bcast_S400000_S400000x1_0 dst) g)

def hostAgg256 (x : FVec F S50000x256 .f32) (dst : IVec S400000 32) (g : FVec F S400000x256 .f32) : FVec F S50000x256 .f32 :=
  addf x (Host.scatterAdd scatter_S50000x256_S400000x1_S400000x256_1_0_0_1 (broadcastInDim S50000x256 ![] bcast_S_S50000x256 (constant S_ .f32 0x00000000#32)) (broadcastInDim S400000x1 ![0] bcast_S400000_S400000x1_0 dst) g)

def hostPool (batch : IVec S50000 32) (h : FVec F S50000x256 .f32) : FVec F S64x256 .f32 :=
  Host.scatterAdd scatter_S64x256_S50000x1_S50000x256_1_0_0_1 (broadcastInDim S64x256 ![] bcast_S_S64x256 (constant S_ .f32 0x00000000#32)) (broadcastInDim S50000x1 ![0] bcast_S50000_S50000x1_0 batch) h

variable (W : Valuation τ sig (Elt F))

theorem host0_v1 : StableHlo.after (hostOps0 (F := F)) W (Proc.devRef .tc main_v1) = srcRow (W (Proc.devRef .tc main_arg1)) := by
  after_results; rfl
theorem host0_v3 : StableHlo.after (hostOps0 (F := F)) W (Proc.devRef .tc main_v3) = dstRow (W (Proc.devRef .tc main_arg1)) := by
  after_results; rfl

set_option maxHeartbeats 2000000 in

theorem host0_1_v4 : StableHlo.after (hostOps0_1 (F := F)) W (Proc.devRef .tc main_v4) = hostTake512 (W (Proc.devRef .tc main_arg0)) (W (Proc.devRef .tc main_v1)) := by
  after_results_simp
  simp only [TRef.ofBuf, TRef.toBuf, cast_cast, cast_eq]
  rfl

theorem host0_2_v8 : StableHlo.after (hostOps0_2 (F := F)) W (Proc.devRef .tc main_v8) = hostAgg512 (W (Proc.devRef .tc main_arg0)) (W (Proc.devRef .tc main_v3)) (W (Proc.devRef .tc main_v4)) := by
  after_results; rfl

set_option maxHeartbeats 2000000 in

theorem host1_v10 : StableHlo.after (hostOps1 (F := F)) W (Proc.devRef .tc main_v10) = hostTake256 (W (Proc.devRef .tc main_v9)) (W (Proc.devRef .tc main_v1)) := by
  after_results_simp
  simp only [TRef.ofBuf, TRef.toBuf, cast_cast, cast_eq]
  rfl

theorem host1_1_v14 : StableHlo.after (hostOps1_1 (F := F)) W (Proc.devRef .tc main_v14) = hostAgg256 (W (Proc.devRef .tc main_v9)) (W (Proc.devRef .tc main_v3)) (W (Proc.devRef .tc main_v10)) := by
  after_results; rfl

set_option maxHeartbeats 2000000 in

theorem host2_v16 : StableHlo.after (hostOps2 (F := F)) W (Proc.devRef .tc main_v16) = hostTake256 (W (Proc.devRef .tc main_v15)) (W (Proc.devRef .tc main_v1)) := by
  after_results_simp
  simp only [TRef.ofBuf, TRef.toBuf, cast_cast, cast_eq]
  rfl

theorem host2_1_v20 : StableHlo.after (hostOps2_1 (F := F)) W (Proc.devRef .tc main_v20) = hostAgg256 (W (Proc.devRef .tc main_v15)) (W (Proc.devRef .tc main_v3)) (W (Proc.devRef .tc main_v16)) := by
  after_results; rfl

theorem host3_v31 : StableHlo.after (hostOps3 (F := F)) W (Proc.devRef .tc main_v31) =
    concatenate S64x768 1 [⟨S64x256, hostPool (W (Proc.devRef .tc main_arg2)) (W (Proc.devRef .tc main_v9))⟩, ⟨S64x256, hostPool (W (Proc.devRef .tc main_arg2)) (W (Proc.devRef .tc main_v15))⟩, ⟨S64x256, hostPool (W (Proc.devRef .tc main_arg2)) (W (Proc.devRef .tc main_v21))⟩] concatenates_S64x256_S64x256_S64x256_S64x768_d1 :=
  rfl

end Cert.KernelIdeal.Hand

end
-- ==== Proof.KIChain.lean ====
import proofs.«423125_j18107582120449_1_alg».proof.Proof.KIRun
import proofs.«423125_j18107582120449_1_alg».proof.Proof.KIHost
import proofs.«423125_j18107582120449_1_alg».proof.Proof.Gen.KernelIdeal.Regions

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem stay1 (c : Dev nD) (r : Ref sig .tc) (h : r ∉ hostOps0_W) : B1 m ρ c (Proc.devRef .tc r) = B0 m ρ c (Proc.devRef .tc r) :=
  StableHlo.after_of_writes_sub hostOps0 _ hostOps0_writes h
theorem stay2 (c : Dev nD) (r : Ref sig .tc) (h : r ∉ hostOps0_1_W) : B2 m ρ c (Proc.devRef .tc r) = B1 m ρ c (Proc.devRef .tc r) :=
  StableHlo.after_of_writes_sub hostOps0_1 _ hostOps0_1_writes h
theorem stay3 (c : Dev nD) (r : Ref sig .tc) (h : r ∉ hostOps0_2_W) : B3 m ρ c (Proc.devRef .tc r) = B2 m ρ c (Proc.devRef .tc r) :=
  StableHlo.after_of_writes_sub hostOps0_2 _ hostOps0_2_writes h
theorem stay5 (c : Dev nD) (r : Ref sig .tc) (h : r ∉ hostOps1_W) : B5 m ρ c (Proc.devRef .tc r) = B4 m ρ c (Proc.devRef .tc r) :=
  StableHlo.after_of_writes_sub hostOps1 _ hostOps1_writes h
theorem stay6 (c : Dev nD) (r : Ref sig .tc) (h : r ∉ hostOps1_1_W) : B6 m ρ c (Proc.devRef .tc r) = B5 m ρ c (Proc.devRef .tc r) :=
  StableHlo.after_of_writes_sub hostOps1_1 _ hostOps1_1_writes h
theorem stay8 (c : Dev nD) (r : Ref sig .tc) (h : r ∉ hostOps2_W) : B8 m ρ c (Proc.devRef .tc r) = B7 m ρ c (Proc.devRef .tc r) :=
  StableHlo.after_of_writes_sub hostOps2 _ hostOps2_writes h
theorem stay9 (c : Dev nD) (r : Ref sig .tc) (h : r ∉ hostOps2_1_W) : B9 m ρ c (Proc.devRef .tc r) = B8 m ρ c (Proc.devRef .tc r) :=
  StableHlo.after_of_writes_sub hostOps2_1 _ hostOps2_1_writes h
theorem stay11 (c : Dev nD) (r : Ref sig .tc) (h : r ∉ hostOps3_W) : B11 m ρ c (Proc.devRef .tc r) = B10 m ρ c (Proc.devRef .tc r) :=
  StableHlo.after_of_writes_sub hostOps3 _ hostOps3_writes h

theorem B1_v1 (c : Dev nD) : B1 m ρ c (Proc.devRef .tc main_v1) = srcRow (m ((c : Thread nD τ).loc main_arg1)) :=
  (host0_v1 (B0 m ρ c)).trans rfl

theorem B1_v3 (c : Dev nD) : B1 m ρ c (Proc.devRef .tc main_v3) = dstRow (m ((c : Thread nD τ).loc main_arg1)) :=
  (host0_v3 (B0 m ρ c)).trans rfl

theorem B2_v1 (c : Dev nD) : B2 m ρ c (Proc.devRef .tc main_v1) = srcRow (m ((c : Thread nD τ).loc main_arg1)) :=
  (stay2 m ρ c main_v1 (by decide)).trans (B1_v1 m ρ c)
theorem B2_v3 (c : Dev nD) : B2 m ρ c (Proc.devRef .tc main_v3) = dstRow (m ((c : Thread nD τ).loc main_arg1)) :=
  (stay2 m ρ c main_v3 (by decide)).trans (B1_v3 m ρ c)
theorem B3_v1 (c : Dev nD) : B3 m ρ c (Proc.devRef .tc main_v1) = srcRow (m ((c : Thread nD τ).loc main_arg1)) :=
  (stay3 m ρ c main_v1 (by decide)).trans (B2_v1 m ρ c)
theorem B3_v3 (c : Dev nD) : B3 m ρ c (Proc.devRef .tc main_v3) = dstRow (m ((c : Thread nD τ).loc main_arg1)) :=
  (stay3 m ρ c main_v3 (by decide)).trans (B2_v3 m ρ c)
theorem B4_v1 (c : Dev nD) : B4 m ρ c (Proc.devRef .tc main_v1) = srcRow (m ((c : Thread nD τ).loc main_arg1)) :=
  (B4_keep m ρ c main_v1 (by decide)).trans (B3_v1 m ρ c)
theorem B4_v3 (c : Dev nD) : B4 m ρ c (Proc.devRef .tc main_v3) = dstRow (m ((c : Thread nD τ).loc main_arg1)) :=
  (B4_keep m ρ c main_v3 (by decide)).trans (B3_v3 m ρ c)
theorem B5_v3 (c : Dev nD) : B5 m ρ c (Proc.devRef .tc main_v3) = dstRow (m ((c : Thread nD τ).loc main_arg1)) :=
  (stay5 m ρ c main_v3 (by decide)).trans (B4_v3 m ρ c)
theorem B5_v1 (c : Dev nD) : B5 m ρ c (Proc.devRef .tc main_v1) = srcRow (m ((c : Thread nD τ).loc main_arg1)) :=
  (stay5 m ρ c main_v1 (by decide)).trans (B4_v1 m ρ c)
theorem B6_v1 (c : Dev nD) : B6 m ρ c (Proc.devRef .tc main_v1) = srcRow (m ((c : Thread nD τ).loc main_arg1)) :=
  (stay6 m ρ c main_v1 (by decide)).trans (B5_v1 m ρ c)
theorem B6_v3 (c : Dev nD) : B6 m ρ c (Proc.devRef .tc main_v3) = dstRow (m ((c : Thread nD τ).loc main_arg1)) :=
  (stay6 m ρ c main_v3 (by decide)).trans (B5_v3 m ρ c)
theorem B7_v1 (c : Dev nD) : B7 m ρ c (Proc.devRef .tc main_v1) = srcRow (m ((c : Thread nD τ).loc main_arg1)) :=
  (B7_keep m ρ c main_v1 (by decide)).trans (B6_v1 m ρ c)
theorem B7_v3 (c : Dev nD) : B7 m ρ c (Proc.devRef .tc main_v3) = dstRow (m ((c : Thread nD τ).loc main_arg1)) :=
  (B7_keep m ρ c main_v3 (by decide)).trans (B6_v3 m ρ c)
theorem B8_v3 (c : Dev nD) : B8 m ρ c (Proc.devRef .tc main_v3) = dstRow (m ((c : Thread nD τ).loc main_arg1)) :=
  (stay8 m ρ c main_v3 (by decide)).trans (B7_v3 m ρ c)

theorem B2_v4 (c : Dev nD) : B2 m ρ c (Proc.devRef .tc main_v4) = hostTake512 (m ((c : Thread nD τ).loc main_arg0)) (srcRow (m ((c : Thread nD τ).loc main_arg1))) := by
  have h4 := host0_1_v4 (B1 m ρ c)
  rw [(kept m ρ c main_arg0 (by decide)).1, B1_v1 m ρ c] at h4
  exact h4

theorem E3_v8 (c : Dev nD) : E3 m ρ c main_v8 = hostAgg512 (m ((c : Thread nD τ).loc main_arg0)) (dstRow (m ((c : Thread nD τ).loc main_arg1))) (hostTake512 (m ((c : Thread nD τ).loc main_arg0)) (srcRow (m ((c : Thread nD τ).loc main_arg1)))) := by
  have h := host0_2_v8 (B2 m ρ c)
  rw [(kept m ρ c main_arg0 (by decide)).2.1, B2_v3 m ρ c, B2_v4 m ρ c] at h
  exact h

theorem E3_arg (c : Dev nD) (b : Ref sig .tc) (hb : Untouched b) : E3 m ρ c b = m ((c : Thread nD τ).loc b) :=
  (kept m ρ c b hb).2.2.1

theorem B4_v9 (c : Dev nD) : B4 m ρ c (Proc.devRef .tc main_v9) = (dat0 (E3 m ρ) c).arrAt 9 cfg0.N :=
  B4_arr m ρ c 9

theorem B5_v9 (c : Dev nD) : B5 m ρ c (Proc.devRef .tc main_v9) = B4 m ρ c (Proc.devRef .tc main_v9) :=
  stay5 m ρ c main_v9 (by decide)

theorem B5_v10 (c : Dev nD) : B5 m ρ c (Proc.devRef .tc main_v10) = hostTake256 (B4 m ρ c (Proc.devRef .tc main_v9)) (srcRow (m ((c : Thread nD τ).loc main_arg1))) := by
  have h10 := host1_v10 (B4 m ρ c)
  rw [B4_v1 m ρ c] at h10
  exact h10

theorem E6_v14 (c : Dev nD) : E6 m ρ c main_v14 = hostAgg256 (B4 m ρ c (Proc.devRef .tc main_v9)) (dstRow (m ((c : Thread nD τ).loc main_arg1)))
    (hostTake256 (B4 m ρ c (Proc.devRef .tc main_v9)) (srcRow (m ((c : Thread nD τ).loc main_arg1)))) := by
  have h := host1_1_v14 (B5 m ρ c)
  rw [B5_v9 m ρ c, B5_v3 m ρ c, B5_v10 m ρ c] at h
  exact h

theorem E6_arg (c : Dev nD) (b : Ref sig .tc) (hb : Untouched b) : E6 m ρ c b = m ((c : Thread nD τ).loc b) :=
  (kept m ρ c b hb).2.2.2.1

theorem B7_v15 (c : Dev nD) : B7 m ρ c (Proc.devRef .tc main_v15) = (dat1 (E6 m ρ) c).arrAt 9 cfg1.N :=
  B7_arr m ρ c 9

theorem B8_v15 (c : Dev nD) : B8 m ρ c (Proc.devRef .tc main_v15) = B7 m ρ c (Proc.devRef .tc main_v15) :=
  stay8 m ρ c main_v15 (by decide)

theorem B8_v16 (c : Dev nD) : B8 m ρ c (Proc.devRef .tc main_v16) = hostTake256 (B7 m ρ c (Proc.devRef .tc main_v15)) (srcRow (m ((c : Thread nD τ).loc main_arg1))) := by
  have h16 := host2_v16 (B7 m ρ c)
  rw [B7_v1 m ρ c] at h16
  exact h16

theorem E9_v20 (c : Dev nD) : E9 m ρ c main_v20 = hostAgg256 (B7 m ρ c (Proc.devRef .tc main_v15)) (dstRow (m ((c : Thread nD τ).loc main_arg1)))
    (hostTake256 (B7 m ρ c (Proc.devRef .tc main_v15)) (srcRow (m ((c : Thread nD τ).loc main_arg1)))) := by
  have h := host2_1_v20 (B8 m ρ c)
  rw [B8_v15 m ρ c, B8_v3 m ρ c, B8_v16 m ρ c] at h
  exact h

theorem E9_arg (c : Dev nD) (b : Ref sig .tc) (hb : Untouched b) : E9 m ρ c b = m ((c : Thread nD τ).loc b) :=
  (kept m ρ c b hb).2.2.2.2.1

theorem B10_v21 (c : Dev nD) : B10 m ρ c (Proc.devRef .tc main_v21) = (dat2 (E9 m ρ) c).arrAt 9 cfg2.N :=
  B10_arr m ρ c 9

theorem B10_v9 (c : Dev nD) : B10 m ρ c (Proc.devRef .tc main_v9) = B4 m ρ c (Proc.devRef .tc main_v9) :=
  (B10_keep m ρ c main_v9 (by decide)).trans ((stay9 m ρ c main_v9 (by decide)).trans ((stay8 m ρ c main_v9 (by decide)).trans
    ((B7_keep m ρ c main_v9 (by decide)).trans ((stay6 m ρ c main_v9 (by decide)).trans (stay5 m ρ c main_v9 (by decide))))))
theorem B10_v15 (c : Dev nD) : B10 m ρ c (Proc.devRef .tc main_v15) = B7 m ρ c (Proc.devRef .tc main_v15) :=
  (B10_keep m ρ c main_v15 (by decide)).trans ((stay9 m ρ c main_v15 (by decide)).trans (stay8 m ρ c main_v15 (by decide)))
theorem B10_arg2 (c : Dev nD) : B10 m ρ c (Proc.devRef .tc main_arg2) = m ((c : Thread nD τ).loc main_arg2) :=
  (kept m ρ c main_arg2 (by decide)).2.2.2.2.2.1

theorem E11_v31 (c : Dev nD) : E11 m ρ c main_v31 = concatenate S64x768 1
    [⟨S64x256, hostPool (m ((c : Thread nD τ).loc main_arg2)) (B4 m ρ c (Proc.devRef .tc main_v9))⟩,
     ⟨S64x256, hostPool (m ((c : Thread nD τ).loc main_arg2)) (B7 m ρ c (Proc.devRef .tc main_v15))⟩,
     ⟨S64x256, hostPool (m ((c : Thread nD τ).loc main_arg2)) (B10 m ρ c (Proc.devRef .tc main_v21))⟩] concatenates_S64x256_S64x256_S64x256_S64x768_d1 := by
  have h := host3_v31 (B10 m ρ c)
  rw [B10_arg2 m ρ c, B10_v9 m ρ c, B10_v15 m ρ c] at h
  exact h

theorem E11_arg (c : Dev nD) (b : Ref sig .tc) (hb : Untouched b) : E11 m ρ c b = m ((c : Thread nD τ).loc b) :=
  (kept m ρ c b hb).2.2.2.2.2.2.1

theorem B12_v32_0 (c : Dev nD) : B12 m ρ c (Proc.devRef .tc main_v32_0) = (dat3 (E11 m ρ) c).arrAt 5 cfg3.N :=
  B12_arr m ρ c 5
theorem B12_v32_1 (c : Dev nD) : B12 m ρ c (Proc.devRef .tc main_v32_1) = (dat3 (E11 m ρ) c).arrAt 6 cfg3.N :=
  B12_arr m ρ c 6

end Cert.KernelIdeal.Hand

end
-- ==== Proof.KITake.lean ====
import proofs.«423125_j18107582120449_1_alg».proof.Pre_finite_inputs
import proofs.«423125_j18107582120449_1_alg».proof.KernelIdeal
import Idealize.ShloMosaic.Lib.ReduceAll
import Idealize.ShloMosaic.Lib.StableHlo.Predicate

noncomputable section

namespace Cert.Pre_finite_inputs.Hand

open Idealize.ShloMosaic

theorem toNat_lt_of_range (s : BitVec 32) (h0 : IntOp.cmpi .sge s 0#32 = 1#1) (h1 : IntOp.cmpi .slt s 50000#32 = 1#1) :
    s.toNat < 50000 := by
  simp only [IntOp.cmpi, StableHlo.Predicate.ofBool_eq_one_iff, BitVec.sle, BitVec.slt, decide_eq_true_eq] at h0 h1
  have e0 : (0#32).toInt = 0 := by decide
  have e1 : (50000#32).toInt = 50000 := by decide
  rw [e0] at h0
  rw [e1] at h1
  rw [BitVec.toInt_eq_toNat_cond] at h0 h1
  have hl := s.isLt
  split at h0 <;> omega

variable [Facts]
open Facts

def srcOf (ei : IVec S2x400000 32) : IVec S400000 32 :=
  shapeCast S400000 (extractStridedSlice S1x400000 ![0, 0] ei slices_S2x400000_S1x400000_0_0) shapeCasts_S1x400000_S400000

theorem part9_one {F : FTy → Type} [FloatOps F] (v149 : IVec S_ 1) (v153 : IVec S400000 1) (c59 : IVec S_ 1) (j : S_.Idx)
    (h : fn_part9 (F := F) v149 v153 c59 j = 1#1) : v149 j = 1#1 ∧ ∀ e, v153 e = 1#1 := by
  haveI : Subsingleton S_.Idx := ⟨fun a b => funext fun d => d.elim0⟩
  dsimp only [fn_part9] at h
  change IntOp.andi _ _ = 1#1 at h
  obtain ⟨h1, h2⟩ := IntOp.andi_eq_one.1 h
  exact ⟨h1, fun e => Host.reduce_andi_all _ _ _ _ j h2 e⟩

theorem part8_one {F : FTy → Type} [FloatOps F] (a1 : IVec S2x400000 32) (a30 : FVec F S2 .f32) (v133 : IVec S_ 1) (v136 : IVec S64x2 1)
    (j : S_.Idx) (h : fn_part8 (F := F) a1 a30 v133 v136 j = 1#1) :
    ∀ e : S400000.Idx, IntOp.cmpi .sge (srcOf a1 e) 0#32 = 1#1 ∧ IntOp.cmpi .slt (srcOf a1 e) 50000#32 = 1#1 := by
  haveI : Subsingleton S_.Idx := ⟨fun a b => funext fun d => d.elim0⟩
  dsimp only [fn_part8] at h
  obtain ⟨h149, h153⟩ := part9_one _ _ _ j h
  change IntOp.andi _ _ = 1#1 at h149
  obtain ⟨-, h148⟩ := IntOp.andi_eq_one.1 h149
  intro e
  exact ⟨Host.reduce_andi_all _ _ _ _ j h148 e, h153 e⟩

theorem src_range {F : FTy → Type} [FloatOps F] (a0 : FVec F S50000x512 .f32) (a1 : IVec S2x400000 32) (a2 : IVec S50000 32) (a3 : FVec F S512x256 .f32) (a4 : FVec F S256 .f32) (a5 : FVec F S256 .f32) (a6 : FVec F S256 .f32) (a7 : FVec F S256 .f32) (a8 : FVec F S256 .f32) (a9 : FVec F S256x256 .f32) (a10 : FVec F S256 .f32) (a11 : FVec F S256x256 .f32) (a12 : FVec F S256 .f32) (a13 : FVec F S256 .f32) (a14 : FVec F S256 .f32) (a15 : FVec F S256 .f32) (a16 : FVec F S256 .f32) (a17 : FVec F S256x256 .f32) (a18 : FVec F S256 .f32) (a19 : FVec F S256x256 .f32) (a20 : FVec F S256 .f32) (a21 : FVec F S256 .f32) (a22 : FVec F S256 .f32) (a23 : FVec F S256 .f32) (a24 : FVec F S256 .f32) (a25 : FVec F S256x256 .f32) (a26 : FVec F S256 .f32) (a27 : FVec F S768x64 .f32) (a28 : FVec F S64 .f32) (a29 : FVec F S64x2 .f32) (a30 : FVec F S2 .f32)
    (h : fn (F := F) a0 a1 a2 a3 a4 a5 a6 a7 a8 a9 a10 a11 a12 a13 a14 a15 a16 a17 a18 a19 a20 a21 a22 a23 a24 a25 a26 a27 a28 a29 a30 = (fun _ => 1#1)) :
    ∀ e : S400000.Idx, IntOp.cmpi .sge (srcOf a1 e) 0#32 = 1#1 ∧ IntOp.cmpi .slt (srcOf a1 e) 50000#32 = 1#1 := by
  have h0 := congrFun h (fun a => a.elim0)
  dsimp only [fn, fn_part1, fn_part2, fn_part3, fn_part4, fn_part5, fn_part6, fn_part7] at h0
  exact part8_one _ _ _ _ _ h0

end Cert.Pre_finite_inputs.Hand

namespace Cert.KernelIdeal.Hand

open Idealize.ShloMosaic
open Cert.KernelIdeal

variable {F : FTy → Type} [FloatOps F] [Facts]
open Facts₀ Facts

theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

theorem select_of_one {α : Type} {s : Shape} (c : IVec s 1) (a b : s.Idx → α) (i : s.Idx) (h : c i = 1#1) :
    select c a b i = a i := by
  show Scalar.select (c i) (a i) (b i) = a i
  rw [h]
  exact if_pos rfl

theorem wrap_word (s : BitVec 32) (h0 : IntOp.cmpi .sge s 0#32 = 1#1) (h1 : IntOp.cmpi .slt s 50000#32 = 1#1) :
    Scalar.select (IntOp.cmpi .slt s 0#32) (IntOp.addi s 50000#32) s = s ∧ IntOp.cmpi .sle s 49999#32 = 1#1 := by
  have hs : s.toNat < 50000 := Cert.Pre_finite_inputs.Hand.toNat_lt_of_range s h0 h1
  have hs31 : s.toNat < 2 ^ 31 := by omega
  have z31 : (0#32).toNat < 2 ^ 31 := by decide
  have m31 : (49999#32).toNat < 2 ^ 31 := by decide
  have em : (49999#32).toNat = 49999 := by decide
  have ez : (0#32).toNat = 0 := by decide
  refine ⟨?_, ?_⟩
  · have hc : ¬ (IntOp.cmpi .slt s 0#32 = 1#1) := by
      rw [StableHlo.Predicate.slt_iff_toNat hs31 z31, ez]; omega
    exact if_neg hc
  · rw [StableHlo.Predicate.sle_iff_toNat hs31 m31, em]; omega

def srcCol (src : IVec S400000 32) : IVec S400000x1 32 :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 50000#32))) src)

def inBounds (src : IVec S400000 32) : IVec S400000 1 :=
  Host.reduce IntOp.andi
    (andi (cmpi .sge (srcCol src) (broadcastInDim S400000x1 ![] bcast_S_S400000x1 (constantI S_ 32 0#32)))
      (cmpi .sle (srcCol src) (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

theorem srcCol_apply (src : IVec S400000 32) (i : S400000x1.Idx) :
    ∃ e : S400000.Idx, srcCol src i = Scalar.select (IntOp.cmpi .slt (src e) 0#32) (IntOp.addi (src e) 50000#32) (src e) :=
  ⟨_, rfl⟩

theorem srcCol_eq (src : IVec S400000 32)
    (h : ∀ e : S400000.Idx, IntOp.cmpi .sge (src e) 0#32 = 1#1 ∧ IntOp.cmpi .slt (src e) 50000#32 = 1#1) :
    srcCol src = broadcastInDim S400000x1 ![0] bcast_S400000_S400000x1_0 src := by
  have hw : select (cmpi .slt src (broadcastInDim S400000 ![] bcast_S_S400000 (constantI S_ 32 0#32)))
      (addi src (broadcastInDim S400000 ![] bcast_S_S400000 (constantI S_ 32 50000#32))) src = src := by
    funext e
    exact (wrap_word (src e) (h e).1 (h e).2).1
  unfold srcCol
  rw [hw]

theorem inBounds_one (src : IVec S400000 32)
    (h : ∀ e : S400000.Idx, IntOp.cmpi .sge (src e) 0#32 = 1#1 ∧ IntOp.cmpi .slt (src e) 50000#32 = 1#1) (e : S400000.Idx) :
    inBounds src e = 1#1 := by
  unfold inBounds
  rw [Host.reduce_eq_foldl]
  refine foldl_andi_ones _ (fun i => ?_) _
  obtain ⟨e', he'⟩ := srcCol_apply src i
  obtain ⟨hw, hle⟩ := wrap_word (src e') (h e').1 (h e').2
  show IntOp.andi (IntOp.cmpi .sge (srcCol src i) 0#32) (IntOp.cmpi .sle (srcCol src i) 49999#32) = 1#1
  rw [he', hw, (h e').1, hle]
  decide

def take512 (x : FVec F S50000x512 .f32) (src : IVec S400000 32) : FVec F S400000x512 .f32 :=
  select (broadcastInDim S400000x512 ![0] bcast_S400000_S400000x512_0 (inBounds src))
    (Host.gather gather_S50000x512_S400000x1_S400000x512_1_0_n_n_0_1_1512 x (srcCol src))
    (broadcastInDim S400000x512 ![] bcast_S_S400000x512 (constant S_ .f32 0x7FC00000#32))

theorem take512_eq (x : FVec F S50000x512 .f32) (src : IVec S400000 32)
    (h : ∀ e : S400000.Idx, IntOp.cmpi .sge (src e) 0#32 = 1#1 ∧ IntOp.cmpi .slt (src e) 50000#32 = 1#1) :
    take512 x src = Host.gather gather_S50000x512_S400000x1_S400000x512_1_0_n_n_0_1_1512 x (srcCol src) := by
  funext i
  exact select_of_one _ _ _ i (inBounds_one src h _)

def take256 (x : FVec F S50000x256 .f32) (src : IVec S400000 32) : FVec F S400000x256 .f32 :=
  select (broadcastInDim S400000x256 ![0] bcast_S400000_S400000x256_0 (inBounds src))
    (Host.gather gather_S50000x256_S400000x1_S400000x256_1_0_n_n_0_1_1256 x (srcCol src))
    (broadcastInDim S400000x256 ![] bcast_S_S400000x256 (constant S_ .f32 0x7FC00000#32))

theorem take256_eq (x : FVec F S50000x256 .f32) (src : IVec S400000 32)
    (h : ∀ e : S400000.Idx, IntOp.cmpi .sge (src e) 0#32 = 1#1 ∧ IntOp.cmpi .slt (src e) 50000#32 = 1#1) :
    take256 x src = Host.gather gather_S50000x256_S400000x1_S400000x256_1_0_n_n_0_1_1256 x (srcCol src) := by
  funext i
  exact select_of_one _ _ _ i (inBounds_one src h _)

end Cert.KernelIdeal.Hand

end
-- ==== Proof.Spec.lean ====
import Idealize.ShloMosaic.PureOps.Ideal
import Idealize.ShloMosaic.Lib.ValueIdx

noncomputable section

namespace Cert.Spec

open Idealize.ShloMosaic

def bnRow {D : ℕ} (h : Fin D → EReal) (W1 : Fin D → Fin 256 → EReal) (b1 gamma beta mean var : Fin 256 → EReal)
    (k : Fin 256) : EReal :=
  max ((((∑ j : Fin D, h j * W1 j k) + b1 k) - mean k) * (Ideal.rsqrt (var k + Ideal.ofBits .f32 0x3727C5AC#32) * gamma k) + beta k)
    (Ideal.ofBits .f32 0x00000000#32)

def layerRow {D : ℕ} (h : Fin D → EReal) (W1 : Fin D → Fin 256 → EReal) (b1 gamma beta mean var : Fin 256 → EReal)
    (W2 : Fin 256 → Fin 256 → EReal) (b2 : Fin 256 → EReal) (c : Fin 256) : EReal :=
  max ((∑ k : Fin 256, bnRow h W1 b1 gamma beta mean var k * W2 k c) + b2 c) (Ideal.ofBits .f32 0x00000000#32)

def hidRow (h : Fin 768 → EReal) (W : Fin 768 → Fin 64 → EReal) (b : Fin 64 → EReal) (k : Fin 64) : EReal :=
  max ((∑ j : Fin 768, h j * W j k) + b k) (Ideal.ofBits .f32 0x00000000#32)

def logitRow (h : Fin 768 → EReal) (W : Fin 768 → Fin 64 → EReal) (b : Fin 64 → EReal) (W' : Fin 64 → Fin 2 → EReal)
    (b' : Fin 2 → EReal) (c : Fin 2) : EReal :=
  (∑ k : Fin 64, hidRow h W b k * W' k c) + b' c

def lsmRow (z : Fin 2 → EReal) (c : Fin 2) : EReal :=
  (z c - max (z 0) (z 1)) - Ideal.log (∑ c' : Fin 2, Ideal.exp (z c' - max (z 0) (z 1)))

end Cert.Spec

end
-- ==== Proof.RefStages.lean ====
import proofs.«423125_j18107582120449_1_alg».proof.Proof.Gen.ReferenceIdeal.Run
import proofs.«423125_j18107582120449_1_alg».proof.Proof.Gen.ReferenceIdeal.Read
import proofs.«423125_j18107582120449_1_alg».proof.Proof.Spec
import Idealize.ShloMosaic.Lib.Pipeline.Value
import Idealize.ShloMosaic.Lib.ValueIdx
import Idealize.ShloMosaic.PureOps.Ideal.Laws
import Idealize.ShloMosaic.Lib.StackMember

noncomputable section

namespace Cert.ReferenceIdeal.Hand

open Cert.ReferenceIdeal Cert.ReferenceIdeal.Gen Cert.ReferenceIdeal.Value Idealize.ShloMosaic Idealize.ShloMosaic.ValueIdx
open Idealize.ShloMosaic.TcCoe Idealize.SL.Sem Idealize.ShloMosaic.StableHlo

variable {F : FTy → Type} [FloatOps F]

def srcCol (ei : IVec S2x400000 32) : IVec S400000x1 32 :=
  broadcastInDim S400000x1 ![0] bcast_S400000_S400000x1_0 (select (cmpi .slt (shapeCast _ (extractStridedSlice S1x400000 ![0, 0] ei slices_S2x400000_S1x400000_0_0) shapeCasts_S1x400000_S400000) (broadcastInDim S400000 ![] bcast_S_S400000 (constantI S_ 32 0#32))) (addi (shapeCast _ (extractStridedSlice S1x400000 ![0, 0] ei slices_S2x400000_S1x400000_0_0) shapeCasts_S1x400000_S400000) (broadcastInDim S400000 ![] bcast_S_S400000 (constantI S_ 32 50000#32))) (shapeCast _ (extractStridedSlice S1x400000 ![0, 0] ei slices_S2x400000_S1x400000_0_0) shapeCasts_S1x400000_S400000))

def dstCol (ei : IVec S2x400000 32) : IVec S400000x1 32 :=
  broadcastInDim S400000x1 ![0] bcast_S400000_S400000x1_0 (shapeCast _ (extractStridedSlice S1x400000 ![1, 0] ei slices_S2x400000_S1x400000_1_0) shapeCasts_S1x400000_S400000)

def agg512 (x : FVec F S50000x512 .f32) (ei : IVec S2x400000 32) : FVec F S50000x512 .f32 :=
  addf x (Host.scatterAdd scatter_S50000x512_S400000x1_S400000x512_1_0_0_1 (broadcastInDim S50000x512 ![] bcast_S_S50000x512 (constant S_ .f32 0x00000000#32)) (dstCol ei) (Host.gather gather_S50000x512_S400000x1_S400000x512_1_0_n_n_0_1_1512 x (srcCol ei)))

def agg256 (x : FVec F S50000x256 .f32) (ei : IVec S2x400000 32) : FVec F S50000x256 .f32 :=
  addf x (Host.scatterAdd scatter_S50000x256_S400000x1_S400000x256_1_0_0_1 (broadcastInDim S50000x256 ![] bcast_S_S50000x256 (constant S_ .f32 0x00000000#32)) (dstCol ei) (Host.gather gather_S50000x256_S400000x1_S400000x256_1_0_n_n_0_1_1256 x (srcCol ei)))

def layer512 (a : FVec F S50000x512 .f32) (W1 : FVec F S512x256 .f32) (b1 gamma beta mean var : FVec F S256 .f32)
    (W2 : FVec F S256x256 .f32) (b2 : FVec F S256 .f32) : FVec F S50000x256 .f32 :=
  maximumf (addf (Host.dotGeneral dot_S50000x256_S256x256_S50000x256_1_0_0_1_n_n none (maximumf (addf (mulf (mulf (subf (addf (Host.dotGeneral dot_S50000x512_S512x256_S50000x256_1_0_0_1_n_n none a W1) (broadcastInDim S50000x256 ![0, 1] bcast_S1x256_S50000x256_0_1 (broadcastInDim S1x256 ![1] bcast_S256_S1x256_1 b1))) (broadcastInDim S50000x256 ![0, 1] bcast_S1x256_S50000x256_0_1 (broadcastInDim S1x256 ![1] bcast_S256_S1x256_1 mean))) (broadcastInDim S50000x256 ![0, 1] bcast_S1x256_S50000x256_0_1 (broadcastInDim S1x256 ![1] bcast_S256_S1x256_1 (Host.rsqrt (addf var (broadcastInDim S256 ![] bcast_S_S256 (constant S_ .f32 0x3727C5AC#32))))))) (broadcastInDim S50000x256 ![0, 1] bcast_S1x256_S50000x256_0_1 (broadcastInDim S1x256 ![1] bcast_S256_S1x256_1 gamma))) (broadcastInDim S50000x256 ![0, 1] bcast_S1x256_S50000x256_0_1 (broadcastInDim S1x256 ![1] bcast_S256_S1x256_1 beta))) (broadcastInDim S50000x256 ![] bcast_S_S50000x256 (constant S_ .f32 0x00000000#32))) W2) (broadcastInDim S50000x256 ![0, 1] bcast_S1x256_S50000x256_0_1 (broadcastInDim S1x256 ![1] bcast_S256_S1x256_1 b2))) (broadcastInDim S50000x256 ![] bcast_S_S50000x256 (constant S_ .f32 0x00000000#32))

def layer256 (a : FVec F S50000x256 .f32) (W1 : FVec F S256x256 .f32) (b1 gamma beta mean var : FVec F S256 .f32)
    (W2 : FVec F S256x256 .f32) (b2 : FVec F S256 .f32) : FVec F S50000x256 .f32 :=
  maximumf (addf (Host.dotGeneral dot_S50000x256_S256x256_S50000x256_1_0_0_1_n_n none (maximumf (addf (mulf (mulf (subf (addf (Host.dotGeneral dot_S50000x256_S256x256_S50000x256_1_0_0_1_n_n none a W1) (broadcastInDim S50000x256 ![0, 1] bcast_S1x256_S50000x256_0_1 (broadcastInDim S1x256 ![1] bcast_S256_S1x256_1 b1))) (broadcastInDim S50000x256 ![0, 1] bcast_S1x256_S50000x256_0_1 (broadcastInDim S1x256 ![1] bcast_S256_S1x256_1 mean))) (broadcastInDim S50000x256 ![0, 1] bcast_S1x256_S50000x256_0_1 (broadcastInDim S1x256 ![1] bcast_S256_S1x256_1 (Host.rsqrt (addf var (broadcastInDim S256 ![] bcast_S_S256 (constant S_ .f32 0x3727C5AC#32))))))) (broadcastInDim S50000x256 ![0, 1] bcast_S1x256_S50000x256_0_1 (broadcastInDim S1x256 ![1] bcast_S256_S1x256_1 gamma))) (broadcastInDim S50000x256 ![0, 1] bcast_S1x256_S50000x256_0_1 (broadcastInDim S1x256 ![1] bcast_S256_S1x256_1 beta))) (broadcastInDim S50000x256 ![] bcast_S_S50000x256 (constant S_ .f32 0x00000000#32))) W2) (broadcastInDim S50000x256 ![0, 1] bcast_S1x256_S50000x256_0_1 (broadcastInDim S1x256 ![1] bcast_S256_S1x256_1 b2))) (broadcastInDim S50000x256 ![] bcast_S_S50000x256 (constant S_ .f32 0x00000000#32))

def pool (batch : IVec S50000 32) (h : FVec F S50000x256 .f32) : FVec F S64x256 .f32 :=
  Host.scatterAdd scatter_S64x256_S50000x1_S50000x256_1_0_0_1 (broadcastInDim S64x256 ![] bcast_S_S64x256 (constant S_ .f32 0x00000000#32)) (broadcastInDim S50000x1 ![0] bcast_S50000_S50000x1_0 batch) h

def headLogits (h : FVec F S64x768 .f32) (W : FVec F S768x64 .f32) (b : FVec F S64 .f32) (W' : FVec F S64x2 .f32)
    (b' : FVec F S2 .f32) : FVec F S64x2 .f32 :=
  addf (Host.dotGeneral dot_S64x64_S64x2_S64x2_1_0_0_1_n_n none (maximumf (addf (Host.dotGeneral dot_S64x768_S768x64_S64x64_1_0_0_1_n_n none h W) (broadcastInDim S64x64 ![0, 1] bcast_S1x64_S64x64_0_1 (broadcastInDim S1x64 ![1] bcast_S64_S1x64_1 b))) (broadcastInDim S64x64 ![] bcast_S_S64x64 (constant S_ .f32 0x00000000#32))) W') (broadcastInDim S64x2 ![0, 1] bcast_S1x2_S64x2_0_1 (broadcastInDim S1x2 ![1] bcast_S2_S1x2_1 b'))

def headLsm (z : FVec F S64x2 .f32) : FVec F S64x2 .f32 :=
  subf (subf z (broadcastInDim S64x2 ![0, 1] bcast_S64x1_S64x2_0_1 (broadcastInDim S64x1 ![0] bcast_S64_S64x1_0 (maximumf (broadcastInDim S64 ![] bcast_S_S64 (constant S_ .f32 0xFF800000#32)) (Host.reduce FloatOps.maximumf z (constant S_ .f32 0xFF800000#32) reducesTo_S64x2_S64_d1 h_S_))))) (broadcastInDim S64x2 ![0, 1] bcast_S64x1_S64x2_0_1 (Host.log (broadcastInDim S64x1 ![0] bcast_S64_S64x1_0 (Host.reduceAdd (Host.exp (subf z (broadcastInDim S64x2 ![0, 1] bcast_S64x1_S64x2_0_1 (broadcastInDim S64x1 ![0] bcast_S64_S64x1_0 (maximumf (broadcastInDim S64 ![] bcast_S_S64 (constant S_ .f32 0xFF800000#32)) (Host.reduce FloatOps.maximumf z (constant S_ .f32 0xFF800000#32) reducesTo_S64x2_S64_d1 h_S_)))))) (constant S_ .f32 0x00000000#32) reducesTo_S64x2_S64_d1 h_S_))))

section Layout
variable {α : Type}

theorem row_apply {n m : Nat} (d₁ : Fin (⟨1, ![m]⟩ : Shape).rank → Fin (⟨2, ![1, m]⟩ : Shape).rank)
    (d₂ : Fin (⟨2, ![1, m]⟩ : Shape).rank → Fin (⟨2, ![n, m]⟩ : Shape).rank)
    (h₁ : (⟨1, ![m]⟩ : Shape).BroadcastsInDim ⟨2, ![1, m]⟩ d₁) (h₂ : (⟨2, ![1, m]⟩ : Shape).BroadcastsInDim ⟨2, ![n, m]⟩ d₂)
    (e₁ : d₁ = ![1]) (e₂ : d₂ = ![0, 1]) (v : (⟨1, ![m]⟩ : Shape).Idx → α) (p : Fin n) (q : Fin m) :
    broadcastInDim ⟨2, ![n, m]⟩ d₂ h₂ (broadcastInDim ⟨2, ![1, m]⟩ d₁ h₁ v) (ix2 p q) = v (ix1 q) := by
  subst e₁ e₂
  refine (broadcastInDim_apply _ h₂ _ (ix2 p q) (ix2 (0 : Fin 1) q) fun a => ?_).trans
    (broadcastInDim_apply _ h₁ v (ix2 (0 : Fin 1) q) (ix1 q) fun a => ?_)
  · match a with
    | ⟨0, _⟩ => show (0 : ℕ) = if (1 : ℕ) = 1 then 0 else p.val; rw [if_pos rfl]
    | ⟨1, _⟩ => show q.val = if m = 1 then 0 else q.val; have := q.isLt; split <;> omega
  · match a with
    | ⟨0, _⟩ => show q.val = if m = 1 then 0 else q.val; have := q.isLt; split <;> omega

theorem col1_apply {n : Nat} (d₁ : Fin (⟨1, ![n]⟩ : Shape).rank → Fin (⟨2, ![n, 1]⟩ : Shape).rank)
    (h₁ : (⟨1, ![n]⟩ : Shape).BroadcastsInDim ⟨2, ![n, 1]⟩ d₁) (e₁ : d₁ = ![0]) (v : (⟨1, ![n]⟩ : Shape).Idx → α)
    (p : Fin n) (o : Fin 1) : broadcastInDim ⟨2, ![n, 1]⟩ d₁ h₁ v (ix2 p o) = v (ix1 p) := by
  subst e₁
  refine broadcastInDim_apply _ h₁ v (ix2 p o) (ix1 p) fun a => ?_
  match a with
  | ⟨0, _⟩ => show p.val = if n = 1 then 0 else p.val; have := p.isLt; split <;> omega

theorem ofCol_apply {n m : Nat} (d₂ : Fin (⟨2, ![n, 1]⟩ : Shape).rank → Fin (⟨2, ![n, m]⟩ : Shape).rank)
    (h₂ : (⟨2, ![n, 1]⟩ : Shape).BroadcastsInDim ⟨2, ![n, m]⟩ d₂) (e₂ : d₂ = ![0, 1])
    (v : (⟨2, ![n, 1]⟩ : Shape).Idx → α) (p : Fin n) (q : Fin m) :
    broadcastInDim ⟨2, ![n, m]⟩ d₂ h₂ v (ix2 p q) = v (ix2 p (0 : Fin 1)) := by
  subst e₂
  refine broadcastInDim_apply _ h₂ v (ix2 p q) (ix2 p (0 : Fin 1)) fun a => ?_
  match a with
  | ⟨0, _⟩ => show p.val = if n = 1 then 0 else p.val; have := p.isLt; split <;> omega
  | ⟨1, _⟩ => show (0 : ℕ) = if (1 : ℕ) = 1 then 0 else q.val; rw [if_pos rfl]

theorem splat_apply {t : Shape} (d : Fin (⟨0, ![]⟩ : Shape).rank → Fin t.rank) (h : (⟨0, ![]⟩ : Shape).BroadcastsInDim t d)
    (v : (⟨0, ![]⟩ : Shape).Idx → α) (j : t.Idx) : broadcastInDim t d h v j = v ix0 :=
  broadcastInDim_apply d h v j ix0 fun a => a.elim0

end Layout

theorem dot512_apply (l : FVec Ideal S50000x512 .f32) (w : FVec Ideal S512x256 .f32) (r : Fin 50000) (c : Fin 256) :
    Host.dotGeneral dot_S50000x512_S512x256_S50000x256_1_0_0_1_n_n none l w (ix2 r c) = ∑ k : Fin 512, l (ix2 r k) * w (ix2 k c) :=
  StackMember.dotGeneral_plain_apply none l w r c

theorem dot256_apply (l : FVec Ideal S50000x256 .f32) (w : FVec Ideal S256x256 .f32) (r : Fin 50000) (c : Fin 256) :
    Host.dotGeneral dot_S50000x256_S256x256_S50000x256_1_0_0_1_n_n none l w (ix2 r c) = ∑ k : Fin 256, l (ix2 r k) * w (ix2 k c) :=
  StackMember.dotGeneral_plain_apply none l w r c

theorem dot768_apply (l : FVec Ideal S64x768 .f32) (w : FVec Ideal S768x64 .f32) (r : Fin 64) (c : Fin 64) :
    Host.dotGeneral dot_S64x768_S768x64_S64x64_1_0_0_1_n_n none l w (ix2 r c) = ∑ k : Fin 768, l (ix2 r k) * w (ix2 k c) :=
  StackMember.dotGeneral_plain_apply none l w r c

theorem dot64_apply (l : FVec Ideal S64x64 .f32) (w : FVec Ideal S64x2 .f32) (r : Fin 64) (c : Fin 2) :
    Host.dotGeneral dot_S64x64_S64x2_S64x2_1_0_0_1_n_n none l w (ix2 r c) = ∑ k : Fin 64, l (ix2 r k) * w (ix2 k c) :=
  StackMember.dotGeneral_plain_apply none l w r c

theorem layer256_apply (a : FVec Ideal S50000x256 .f32) (W1 : FVec Ideal S256x256 .f32) (b1 gamma beta mean var : FVec Ideal S256 .f32)
    (W2 : FVec Ideal S256x256 .f32) (b2 : FVec Ideal S256 .f32) (r : Fin 50000) (c : Fin 256) :
    layer256 (F := Ideal) a W1 b1 gamma beta mean var W2 b2 (ix2 r c)
      = Cert.Spec.layerRow (fun j => a (ix2 r j)) (fun j k => W1 (ix2 j k)) (fun k => b1 (ix1 k)) (fun k => gamma (ix1 k))
          (fun k => beta (ix1 k)) (fun k => mean (ix1 k)) (fun k => var (ix1 k)) (fun k c => W2 (ix2 k c)) (fun c => b2 (ix1 c)) c := by
  unfold layer256 Cert.Spec.layerRow Cert.Spec.bnRow
  simp only [maximumf_apply, addf_apply, subf_apply, mulf_apply, row_apply, splat_apply, constant_apply, dot256_apply,
    dot256_apply, Host.rsqrt, Ideal.hostUnary_rsqrt_def, mul_assoc]

theorem layer512_apply (a : FVec Ideal S50000x512 .f32) (W1 : FVec Ideal S512x256 .f32) (b1 gamma beta mean var : FVec Ideal S256 .f32)
    (W2 : FVec Ideal S256x256 .f32) (b2 : FVec Ideal S256 .f32) (r : Fin 50000) (c : Fin 256) :
    layer512 (F := Ideal) a W1 b1 gamma beta mean var W2 b2 (ix2 r c)
      = Cert.Spec.layerRow (fun j => a (ix2 r j)) (fun j k => W1 (ix2 j k)) (fun k => b1 (ix1 k)) (fun k => gamma (ix1 k))
          (fun k => beta (ix1 k)) (fun k => mean (ix1 k)) (fun k => var (ix1 k)) (fun k c => W2 (ix2 k c)) (fun c => b2 (ix1 c)) c := by
  unfold layer512 Cert.Spec.layerRow Cert.Spec.bnRow
  simp only [maximumf_apply, addf_apply, subf_apply, mulf_apply, row_apply, splat_apply, constant_apply, dot512_apply,
    dot256_apply, Host.rsqrt, Ideal.hostUnary_rsqrt_def, mul_assoc]

theorem headLogits_apply (h : FVec Ideal S64x768 .f32) (W : FVec Ideal S768x64 .f32) (b : FVec Ideal S64 .f32)
    (W' : FVec Ideal S64x2 .f32) (b' : FVec Ideal S2 .f32) (g : Fin 64) (c : Fin 2) :
    headLogits (F := Ideal) h W b W' b' (ix2 g c)
      = Cert.Spec.logitRow (fun j => h (ix2 g j)) (fun j k => W (ix2 j k)) (fun k => b (ix1 k)) (fun k c => W' (ix2 k c))
          (fun c => b' (ix1 c)) c := by
  unfold headLogits Cert.Spec.logitRow Cert.Spec.hidRow
  simp only [maximumf_apply, addf_apply, row_apply, splat_apply, constant_apply, dot768_apply, dot64_apply]

theorem ninf_max (x : EReal) : max (Ideal.ofBits .f32 0xFF800000#32) x = x := by
  simp [Ideal.ofBits, Ideal.ieee]

theorem lift_row (h : S64x2.Reduces [1] S64) (g : Fin 64) (k : Fin 2) : h.lift (ix1 g) k = ix2 g k :=
  funext fun a => Fin.ext (by match a with | ⟨0, _⟩ => rfl | ⟨1, _⟩ => rfl)

theorem rowmax_apply (z : FVec Ideal S64x2 .f32) (g : Fin 64) :
    Host.reduce FloatOps.maximumf z (constant S_ .f32 0xFF800000#32) reducesTo_S64x2_S64_d1 h_S_ (ix1 g)
      = max (z (ix2 g 0)) (z (ix2 g 1)) := by
  have h : S64x2.Reduces [1] S64 := by decide
  rw [Host.reduce_eq_fold_single FloatOps.maximumf z _ reducesTo_S64x2_S64_d1 h h_S_]
  show (Finset.univ : Finset (Fin 2)).fold max (Ideal.ofBits .f32 0xFF800000#32) (fun k : Fin 2 => z (h.lift (ix1 g) k)) = _
  rw [show (Finset.univ : Finset (Fin 2)) = insert 0 {1} from by decide, Finset.fold_insert (by decide), Finset.fold_singleton,
    lift_row, lift_row, max_comm (z (ix2 g 1)), ninf_max]

theorem rowsum_apply (x : FVec Ideal S64x2 .f32) (g : Fin 64) :
    Host.reduceAdd x (constant S_ .f32 0x00000000#32) reducesTo_S64x2_S64_d1 h_S_ (ix1 g) = ∑ k : Fin 2, x (ix2 g k) := by
  have h : S64x2.Reduces [1] S64 := by decide
  simp only [Host.reduceAdd, Ideal.hostReduceAdd_def]
  rw [Ideal.hostReduceAdd_single reducesTo_S64x2_S64_d1 h]
  show Ideal.ofBits .f32 0x00000000#32 + ∑ k : Fin 2, x (h.lift (ix1 g) k) = _
  rw [Ideal.ofBits_zero_f32, zero_add]
  exact Finset.sum_congr rfl fun k _ => congrArg x (lift_row h g k)

theorem headLsm_apply (z : FVec Ideal S64x2 .f32) (g : Fin 64) (c : Fin 2) :
    headLsm (F := Ideal) z (ix2 g c) = Cert.Spec.lsmRow (fun c' => z (ix2 g c')) c := by
  unfold headLsm Cert.Spec.lsmRow
  simp only [subf_apply, maximumf_apply, ofCol_apply, col1_apply, splat_apply, constant_apply, Host.log, Host.exp,
    Ideal.hostUnary_log_def, Ideal.hostUnary_exp_def, rowmax_apply, rowsum_apply, ninf_max]

def refH1 (m : (ℓ : Loc nD τ sig) → Buf (Elt F) ℓ) (c : Dev nD) : FVec F S50000x256 .f32 :=
  layer512 (agg512 (m ((c.tc : Thread nD τ).loc main_arg0)) (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

def refH2 (m : (ℓ : Loc nD τ sig) → Buf (Elt F) ℓ) (c : Dev nD) : FVec F S50000x256 .f32 :=
  layer256 (agg256 (refH1 m c) (m ((c.tc : Thread nD τ).loc main_arg1))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

def refH3 (m : (ℓ : Loc nD τ sig) → Buf (Elt F) ℓ) (c : Dev nD) : FVec F S50000x256 .f32 :=
  layer256 (agg256 (refH2 m c) (m ((c.tc : Thread nD τ).loc main_arg1))) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))

set_option maxRecDepth 8192 in

theorem res0_eq (m : (ℓ : Loc nD τ sig) → Buf (Elt F) ℓ) (c : Dev nD) :
    res_main_v130 m c = headLogits (concatenate S64x768 1 [⟨S64x256, pool (m ((c.tc : Thread nD τ).loc main_arg2)) (refH1 m c)⟩, ⟨S64x256, pool (m ((c.tc : Thread nD τ).loc main_arg2)) (refH2 m c)⟩, ⟨S64x256, pool (m ((c.tc : Thread nD τ).loc main_arg2)) (refH3 m c)⟩] concatenates_S64x256_S64x256_S64x256_S64x768_d1) (m ((c.tc : Thread nD τ).loc main_arg27)) (m ((c.tc : Thread nD τ).loc main_arg28)) (m ((c.tc : Thread nD τ).loc main_arg29)) (m ((c.tc : Thread nD τ).loc main_arg30)) := by
  unfold res_main_v130 refH3 refH2 refH1
  rfl

set_option maxRecDepth 8192 in

theorem res1_eq (m : (ℓ : Loc nD τ sig) → Buf (Elt F) ℓ) (c : Dev nD) : res_main_v131 m c = headLsm (res_main_v130 m c) := by
  unfold res_main_v131 res_main_v130
  rfl

end Cert.ReferenceIdeal.Hand

end
-- ==== Proof.BridgeAgg.lean ====
import proofs.«423125_j18107582120449_1_alg».proof.Proof.KIHost
import proofs.«423125_j18107582120449_1_alg».proof.Proof.KITake
import proofs.«423125_j18107582120449_1_alg».proof.Proof.RefStages
import proofs.«423125_j18107582120449_1_alg».proof.Proof.Gen.Pre_finite_inputs

set_option maxRecDepth 16384

noncomputable section

namespace Cert.Bridge

open Idealize.ShloMosaic

variable {F : FTy → Type} [FloatOps F]

theorem gather512_eq : Cert.KernelIdeal.gather_S50000x512_S400000x1_S400000x512_1_0_n_n_0_1_1512
    = Cert.ReferenceIdeal.gather_S50000x512_S400000x1_S400000x512_1_0_n_n_0_1_1512 := rfl

theorem gather256_eq : Cert.KernelIdeal.gather_S50000x256_S400000x1_S400000x256_1_0_n_n_0_1_1256
    = Cert.ReferenceIdeal.gather_S50000x256_S400000x1_S400000x256_1_0_n_n_0_1_1256 := rfl

theorem scatter512_eq : Cert.KernelIdeal.scatter_S50000x512_S400000x1_S400000x512_1_0_0_1
    = Cert.ReferenceIdeal.scatter_S50000x512_S400000x1_S400000x512_1_0_0_1 := rfl

theorem scatter256_eq : Cert.KernelIdeal.scatter_S50000x256_S400000x1_S400000x256_1_0_0_1
    = Cert.ReferenceIdeal.scatter_S50000x256_S400000x1_S400000x256_1_0_0_1 := rfl

theorem scatterPool_eq : Cert.KernelIdeal.scatter_S64x256_S50000x1_S50000x256_1_0_0_1
    = Cert.ReferenceIdeal.scatter_S64x256_S50000x1_S50000x256_1_0_0_1 := rfl

theorem srcRow_eq (ei : IVec Cert.KernelIdeal.S2x400000 32) :
    Cert.KernelIdeal.Hand.srcRow ei = Cert.Pre_finite_inputs.Hand.srcOf ei := rfl

theorem srcCol_eq (ei : IVec Cert.KernelIdeal.S2x400000 32) :
    Cert.KernelIdeal.Hand.srcCol (Cert.KernelIdeal.Hand.srcRow ei) = Cert.ReferenceIdeal.Hand.srcCol ei := rfl

theorem dstCol_eq (ei : IVec Cert.KernelIdeal.S2x400000 32) :
    broadcastInDim Cert.KernelIdeal.S400000x1 ![0] Cert.KernelIdeal.Facts₀.bcast_S400000_S400000x1_0 (Cert.KernelIdeal.Hand.dstRow ei)
      = Cert.ReferenceIdeal.Hand.dstCol ei := rfl

theorem hostTake512_eq (x : FVec F Cert.KernelIdeal.S50000x512 .f32) (src : IVec Cert.KernelIdeal.S400000 32) :
    Cert.KernelIdeal.Hand.hostTake512 x src = Cert.KernelIdeal.Hand.take512 x src := rfl

theorem hostTake256_eq (x : FVec F Cert.KernelIdeal.S50000x256 .f32) (src : IVec Cert.KernelIdeal.S400000 32) :
    Cert.KernelIdeal.Hand.hostTake256 x src = Cert.KernelIdeal.Hand.take256 x src := rfl

theorem agg512_bridge (x : FVec F Cert.KernelIdeal.S50000x512 .f32) (ei : IVec Cert.KernelIdeal.S2x400000 32)
    (h : ∀ e : Cert.KernelIdeal.S400000.Idx, IntOp.cmpi .sge (Cert.Pre_finite_inputs.Hand.srcOf ei e) 0#32 = 1#1
      ∧ IntOp.cmpi .slt (Cert.Pre_finite_inputs.Hand.srcOf ei e) 50000#32 = 1#1) :
    Cert.KernelIdeal.Hand.hostAgg512 x (Cert.KernelIdeal.Hand.dstRow ei) (Cert.KernelIdeal.Hand.hostTake512 x (Cert.KernelIdeal.Hand.srcRow ei))
      = Cert.ReferenceIdeal.Hand.agg512 x ei := by
  rw [hostTake512_eq, Cert.KernelIdeal.Hand.take512_eq x (Cert.KernelIdeal.Hand.srcRow ei) h]
  rfl

theorem agg256_bridge (x : FVec F Cert.KernelIdeal.S50000x256 .f32) (ei : IVec Cert.KernelIdeal.S2x400000 32)
    (h : ∀ e : Cert.KernelIdeal.S400000.Idx, IntOp.cmpi .sge (Cert.Pre_finite_inputs.Hand.srcOf ei e) 0#32 = 1#1
      ∧ IntOp.cmpi .slt (Cert.Pre_finite_inputs.Hand.srcOf ei e) 50000#32 = 1#1) :
    Cert.KernelIdeal.Hand.hostAgg256 x (Cert.KernelIdeal.Hand.dstRow ei) (Cert.KernelIdeal.Hand.hostTake256 x (Cert.KernelIdeal.Hand.srcRow ei))
      = Cert.ReferenceIdeal.Hand.agg256 x ei := by
  rw [hostTake256_eq, Cert.KernelIdeal.Hand.take256_eq x (Cert.KernelIdeal.Hand.srcRow ei) h]
  rfl

theorem pool_bridge (b : IVec Cert.KernelIdeal.S50000 32) (hh : FVec F Cert.KernelIdeal.S50000x256 .f32) :
    Cert.KernelIdeal.Hand.hostPool b hh = Cert.ReferenceIdeal.Hand.pool b hh := rfl

theorem cat_bridge (p1 p2 p3 : FVec F Cert.KernelIdeal.S64x256 .f32) :
    concatenate Cert.KernelIdeal.S64x768 1 [⟨Cert.KernelIdeal.S64x256, p1⟩, ⟨Cert.KernelIdeal.S64x256, p2⟩, ⟨Cert.KernelIdeal.S64x256, p3⟩]
        Cert.KernelIdeal.Facts₀.concatenates_S64x256_S64x256_S64x256_S64x768_d1
      = concatenate Cert.ReferenceIdeal.S64x768 1 [⟨Cert.ReferenceIdeal.S64x256, p1⟩, ⟨Cert.ReferenceIdeal.S64x256, p2⟩, ⟨Cert.ReferenceIdeal.S64x256, p3⟩]
        Cert.ReferenceIdeal.Facts₀.concatenates_S64x256_S64x256_S64x256_S64x768_d1 := rfl

end Cert.Bridge

end
-- ==== Proof.KIPay.lean ====
import proofs.«423125_j18107582120449_1_alg».proof.Proof.Gen.KernelIdeal.Skeleton
import proofs.«423125_j18107582120449_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

noncomputable section

namespace Cert.KernelIdeal.Hand

open Cert.KernelIdeal Cert.KernelIdeal.Gen Idealize.ShloMosaic Idealize.ShloMosaic.ValueIdx

theorem rowBroadcast_apply {a b : ℕ} (v : (⟨1, ![b]⟩ : Shape).Idx → EReal)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- An m×k by k×n product into a zero accumulator, read at an entry, is the sum over the contracted coordinate. -/
theorem matmul_plain_apply {m k n : ℕ} {φ₁ φ₂ : FTy} (x : FVec Ideal ⟨2, ![m, k]⟩ φ₁) (w : FVec Ideal ⟨2, ![k, n]⟩ φ₂) (i : Fin m) (c : Fin n) :
    matmul (DotDims.plain m k n) none x w (constant ⟨2, ![m, n]⟩ .f32 0x00000000#32) (ix2 i c) = ∑ j : Fin k, x (ix2 i j) * w (ix2 j c) := by
  simp only [matmul]
  rw [Ideal.matmul_constant_zero_apply]
  exact (Ideal.dotGeneral_apply _ none _ x w _).symm.trans (StackMember.dotGeneral_plain_apply none x w i c)

theorem matmul_d512_apply (x : FVec Ideal S1000x512 .bf16) (w : FVec Ideal S512x256 .bf16) (i : Fin 1000) (c : Fin 256) :
    matmul dot_S1000x512_S512x256_S1000x256_1_0_0_1_n_n none x w (constant S1000x256 .f32 0x00000000#32) (ix2 i c)
      = ∑ k : Fin 512, x (ix2 i k) * w (ix2 k c) := matmul_plain_apply x w i c
theorem matmul_d256_apply (x : FVec Ideal S1000x256 .bf16) (w : FVec Ideal S256x256 .bf16) (i : Fin 1000) (c : Fin 256) :
    matmul dot_S1000x256_S256x256_S1000x256_1_0_0_1_n_n none x w (constant S1000x256 .f32 0x00000000#32) (ix2 i c)
      = ∑ k : Fin 256, x (ix2 i k) * w (ix2 k c) := matmul_plain_apply x w i c
theorem matmul_h1_apply (x : FVec Ideal S64x768 .bf16) (w : FVec Ideal S768x64 .bf16) (i : Fin 64) (c : Fin 64) :
    matmul dot_S64x768_S768x64_S64x64_1_0_0_1_n_n none x w (constant S64x64 .f32 0x00000000#32) (ix2 i c)
      = ∑ k : Fin 768, x (ix2 i k) * w (ix2 k c) := matmul_plain_apply x w i c
theorem matmul_h2_apply (x : FVec Ideal S64x64 .bf16) (w : FVec Ideal S64x2 .bf16) (i : Fin 64) (c : Fin 2) :
    matmul dot_S64x64_S64x2_S64x2_1_0_0_1_n_n none x w (constant S64x2 .f32 0x00000000#32) (ix2 i c)
      = ∑ k : Fin 64, x (ix2 i k) * w (ix2 k c) := matmul_plain_apply x w i c

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

theorem ofBits_neg_inf_f32 : Ideal.ofBits .f32 0xFF800000#32 = ⊥ := by simp [Ideal.ofBits, Ideal.ieee]

theorem lift_col (h : S64x2.Reduces [1] S64) (g : Fin 64) (k : Fin 2) : h.lift (ix1 g) k = ix2 g k :=
  funext fun a => Fin.ext (by match a with | ⟨0, _⟩ => rfl | ⟨1, _⟩ => rfl)

theorem rowMax_apply (z : FVec Ideal S64x2 .f32) (h : S64x2.Reduces [1] S64) (hφ : FKind.Formats .f32)
    (hacc : (0xFF800000#32 : BitVec 32) = FKind.neutral .maximumf .f32 hφ) (g : Fin 64) :
    multiReduction .maximumf [1] S64 z 0xFF800000#32 h hφ hacc (ix1 g) = max (z (ix2 g 0)) (z (ix2 g 1)) := by
  rw [Ideal.multiReduction_maximumf_single]
  have hf : (z ∘ h.lift (ix1 g)) = fun k : Fin 2 => z (ix2 g k) := funext fun k => congrArg z (lift_col h g k)
  refine (congrArg (fun f => Finset.fold max (FloatOps.ofBits .f32 0xFF800000#32) f (Finset.univ : Finset (Fin 2))) hf).trans ?_
  rw [Ideal.ofBits_def, ofBits_neg_inf_f32]
  simp only [Fin.univ_succ, Finset.fold_cons, Finset.fold_map, Finset.univ_unique, Finset.fold_singleton]
  show max (z (ix2 g 0)) (max (z (ix2 g 1)) ⊥) = _
  rw [max_bot_right]

theorem rowSum_apply (y : FVec Ideal S64x2 .f32) (h : S64x2.Reduces [1] S64) (hφ : FKind.Formats .f32)
    (hacc : (0x00000000#32 : BitVec 32) = FKind.neutral .add .f32 hφ) (g : Fin 64) :
    multiReduction .add [1] S64 y 0x00000000#32 h hφ hacc (ix1 g) = ∑ k : Fin 2, y (ix2 g k) := by
  rw [Ideal.multiReduction_add_single]
  exact Finset.sum_congr rfl fun k _ => congrArg y (lift_col h g k)

theorem k0_pay1_apply (v0 : Vec Ideal S1000x512 .f32) (v3 : Vec Ideal S512x256 .f32) (v6 v10 v14 v16 v23 : Vec Ideal S256 .f32)
    (v30 : Vec Ideal S256x256 .f32) (v33 : Vec Ideal S256 .f32) (i : Fin 1000) (c : Fin 256) :
    k0_pay1 (F := Ideal) v0 v3 v6 v10 v14 v16 v23 v30 v33 (ix2 i c)
      = Cert.Spec.layerRow (fun j => v0 (ix2 i j)) (fun j k => v3 (ix2 j k)) (fun k => v6 (ix1 k)) (fun k => v14 (ix1 k))
          (fun k => v23 (ix1 k)) (fun k => v16 (ix1 k)) (fun k => v10 (ix1 k)) (fun k c => v30 (ix2 k c)) (fun c => v33 (ix1 c)) c := by
  unfold k0_pay1 Cert.Spec.layerRow
  rw [shapeCast_self]
  rw [maximumf_apply, addf_apply, broadcast_apply, rowBroadcast_apply, matmul_d256_apply]
  refine congrArg (fun s => max (s + v33 (ix1 c)) _) (Finset.sum_congr rfl fun k _ => ?_)
  rw [truncf_apply, truncf_apply]
  refine congrArg (· * v30 (ix2 k c)) ?_
  unfold Cert.Spec.bnRow
  rw [maximumf_apply, addf_apply, broadcast_apply, rowBroadcast_apply, mulf_apply, subf_apply, rowBroadcast_apply,
    rowBroadcast_apply, addf_apply, rowBroadcast_apply, matmul_d512_apply]
  rfl

theorem k1_pay1_apply (v0 : Vec Ideal S1000x256 .f32) (v3 : Vec Ideal S256x256 .f32) (v6 v10 v14 v16 v23 : Vec Ideal S256 .f32)
    (v30 : Vec Ideal S256x256 .f32) (v33 : Vec Ideal S256 .f32) (i : Fin 1000) (c : Fin 256) :
    k1_pay1 (F := Ideal) v0 v3 v6 v10 v14 v16 v23 v30 v33 (ix2 i c)
      = Cert.Spec.layerRow (fun j => v0 (ix2 i j)) (fun j k => v3 (ix2 j k)) (fun k => v6 (ix1 k)) (fun k => v14 (ix1 k))
          (fun k => v23 (ix1 k)) (fun k => v16 (ix1 k)) (fun k => v10 (ix1 k)) (fun k c => v30 (ix2 k c)) (fun c => v33 (ix1 c)) c := by
  unfold k1_pay1 Cert.Spec.layerRow
  rw [shapeCast_self]
  rw [maximumf_apply, addf_apply, broadcast_apply, rowBroadcast_apply, matmul_d256_apply]
  refine congrArg (fun s => max (s + v33 (ix1 c)) _) (Finset.sum_congr rfl fun k _ => ?_)
  rw [truncf_apply, truncf_apply]
  refine congrArg (· * v30 (ix2 k c)) ?_
  unfold Cert.Spec.bnRow
  rw [maximumf_apply, addf_apply, broadcast_apply, rowBroadcast_apply, mulf_apply, subf_apply, rowBroadcast_apply,
    rowBroadcast_apply, addf_apply, rowBroadcast_apply, matmul_d256_apply]
  rfl

theorem k2_pay1_apply (v0 : Vec Ideal S1000x256 .f32) (v3 : Vec Ideal S256x256 .f32) (v6 v10 v14 v16 v23 : Vec Ideal S256 .f32)
    (v30 : Vec Ideal S256x256 .f32) (v33 : Vec Ideal S256 .f32) (i : Fin 1000) (c : Fin 256) :
    k2_pay1 (F := Ideal) v0 v3 v6 v10 v14 v16 v23 v30 v33 (ix2 i c)
      = Cert.Spec.layerRow (fun j => v0 (ix2 i j)) (fun j k => v3 (ix2 j k)) (fun k => v6 (ix1 k)) (fun k => v14 (ix1 k))
          (fun k => v23 (ix1 k)) (fun k => v16 (ix1 k)) (fun k => v10 (ix1 k)) (fun k c => v30 (ix2 k c)) (fun c => v33 (ix1 c)) c :=
  k1_pay1_apply v0 v3 v6 v10 v14 v16 v23 v30 v33 i c

theorem k3_pay1_apply (v0 : Vec Ideal S64x768 .f32) (v3 : Vec Ideal S768x64 .f32) (v6 : Vec Ideal S64 .f32)
    (v13 : Vec Ideal S64x2 .f32) (v16 : Vec Ideal S2 .f32) (g : Fin 64) (c : Fin 2) :
    k3_pay1 (F := Ideal) v0 v3 v6 v13 v16 (ix2 g c)
      = Cert.Spec.logitRow (fun j => v0 (ix2 g j)) (fun j k => v3 (ix2 j k)) (fun k => v6 (ix1 k))
          (fun k c => v13 (ix2 k c)) (fun c => v16 (ix1 c)) c := by
  unfold k3_pay1 Cert.Spec.logitRow
  rw [shapeCast_self]
  rw [addf_apply, rowBroadcast_apply, matmul_h2_apply]
  refine congrArg (· + v16 (ix1 c)) (Finset.sum_congr rfl fun k _ => ?_)
  rw [truncf_apply, truncf_apply]
  refine congrArg (· * v13 (ix2 k c)) ?_
  unfold Cert.Spec.hidRow
  rw [maximumf_apply, addf_apply, broadcast_apply, rowBroadcast_apply, matmul_h1_apply]
  rfl

theorem k3_pay2_apply (v0 : Vec Ideal S64x768 .f32) (v3 : Vec Ideal S768x64 .f32) (v6 : Vec Ideal S64 .f32)
    (v13 : Vec Ideal S64x2 .f32) (v16 : Vec Ideal S2 .f32) (g : Fin 64) (c : Fin 2) :
    k3_pay2 (F := Ideal) v0 v3 v6 v13 v16 (ix2 g c)
      = Cert.Spec.lsmRow (Cert.Spec.logitRow (fun j => v0 (ix2 g j)) (fun j k => v3 (ix2 j k)) (fun k => v6 (ix1 k))
          (fun k c => v13 (ix2 k c)) (fun c => v16 (ix1 c))) c := by
  have hz : Cert.Spec.logitRow (fun j => v0 (ix2 g j)) (fun j k => v3 (ix2 j k)) (fun k => v6 (ix1 k))
      (fun k c => v13 (ix2 k c)) (fun c => v16 (ix1 c)) = fun c' => k3_pay1 (F := Ideal) v0 v3 v6 v13 v16 (ix2 g c') :=
    funext fun c' => (k3_pay1_apply v0 v3 v6 v13 v16 g c').symm
  rw [hz]
  unfold k3_pay2
  generalize k3_pay1 (F := Ideal) v0 v3 v6 v13 v16 = P
  unfold Cert.Spec.lsmRow
  simp only [subf_apply, log_apply, broadcastTo_a1_ab_apply, shapeCast_a_a1_apply]
  refine congrArg₂ (fun m s => P (ix2 g c) - m - Ideal.log s) (rowMax_apply P _ _ _ g)
    ((rowSum_apply _ _ _ _ g).trans (Finset.sum_congr rfl fun c' _ => ?_))
  rw [exp_apply, subf_apply, broadcastTo_a1_ab_apply, shapeCast_a_a1_apply]
  exact congrArg (fun m => Ideal.exp (P (ix2 g c') - m)) (rowMax_apply P _ _ _ g)

end Cert.KernelIdeal.Hand

end
-- ==== Proof.KIFinal0.lean ====
import proofs.«423125_j18107582120449_1_alg».proof.Proof.KIBody0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

theorem idx_facts0 : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem iblk0_0_apply (c : Dev nD) (t : Fin cfg0.N) (i : Fin 1000) (j : Fin 512) (r : Fin 50000) (hr : r.val = t.val * 1000 + i.val) :
    (iblk0 V c 0 t : Vec F S1000x512 .f32) (ix2 i j) = (V c main_v8 : S50000x512.Idx → Elt F .f32) (ix2 r j) := by
  obtain ⟨e0, e1, -⟩ := idx_facts0 t
  unfold iblk0
  rw [View.read_apply]
  show V c main_v8 _ = V c main_v8 _
  congr 1
  funext a; apply Fin.ext
  match a with
  | ⟨0, _⟩ => show win0_0.index t (0 : Fin 2) * 1000 + 1 * i.val = r.val; rw [e0, hr]; omega
  | ⟨1, _⟩ => show win0_0.index t (1 : Fin 2) * 512 + 1 * j.val = j.val; rw [e1]; omega

theorem iblk0_1 (c : Dev nD) (t : Fin cfg0.N) : (iblk0 V c 1 t : Vec F S512x256 .f32) = V c main_arg3 := by
  obtain ⟨-, -, -, -, e0, e1, -⟩ := idx_facts0 t
  funext x
  unfold iblk0
  rw [View.read_apply]
  show V c main_arg3 _ = V c main_arg3 x
  congr 1
  funext a; apply Fin.ext
  match a with
  | ⟨0, _⟩ => show win0_1.index t (0 : Fin 2) * 512 + 1 * (x 0).val = (x 0).val; rw [e0]; omega
  | ⟨1, _⟩ => show win0_1.index t (1 : Fin 2) * 256 + 1 * (x 1).val = (x 1).val; rw [e1]; omega
theorem iblk0_2 (c : Dev nD) (t : Fin cfg0.N) : (iblk0 V c 2 t : Vec F S256 .f32) = V c main_arg4 := by
  obtain ⟨-, -, -, -, -, -, e0, -⟩ := idx_facts0 t
  funext x
  unfold iblk0
  rw [View.read_apply]
  show V c main_arg4 _ = V c main_arg4 x
  congr 1
  funext a; apply Fin.ext
  match a with
  | ⟨0, _⟩ => show win0_2.index t (0 : Fin 1) * 256 + 1 * (x 0).val = (x 0).val; rw [e0]; omega
theorem iblk0_3 (c : Dev nD) (t : Fin cfg0.N) : (iblk0 V c 3 t : Vec F S256 .f32) = V c main_arg5 := by
  obtain ⟨-, -, -, -, -, -, -, e0, -⟩ := idx_facts0 t
  funext x
  unfold iblk0
  rw [View.read_apply]
  show V c main_arg5 _ = V c main_arg5 x
  congr 1
  funext a; apply Fin.ext
  match a with
  | ⟨0, _⟩ => show win0_3.index t (0 : Fin 1) * 256 + 1 * (x 0).val = (x 0).val; rw [e0]; omega
theorem iblk0_4 (c : Dev nD) (t : Fin cfg0.N) : (iblk0 V c 4 t : Vec F S256 .f32) = V c main_arg6 := by
  obtain ⟨-, -, -, -, -, -, -, -, e0, -⟩ := idx_facts0 t
  funext x
  unfold iblk0
  rw [View.read_apply]
  show V c main_arg6 _ = V c main_arg6 x
  congr 1
  funext a; apply Fin.ext
  match a with
  | ⟨0, _⟩ => show win0_4.index t (0 : Fin 1) * 256 + 1 * (x 0).val = (x 0).val; rw [e0]; omega
theorem iblk0_5 (c : Dev nD) (t : Fin cfg0.N) : (iblk0 V c 5 t : Vec F S256 .f32) = V c main_arg7 := by
  obtain ⟨-, -, -, -, -, -, -, -, -, e0, -⟩ := idx_facts0 t
  funext x
  unfold iblk0
  rw [View.read_apply]
  show V c main_arg7 _ = V c main_arg7 x
  congr 1
  funext a; apply Fin.ext
  match a with
  | ⟨0, _⟩ => show win0_5.index t (0 : Fin 1) * 256 + 1 * (x 0).val = (x 0).val; rw [e0]; omega
theorem iblk0_6 (c : Dev nD) (t : Fin cfg0.N) : (iblk0 V c 6 t : Vec F S256 .f32) = V c main_arg8 := by
  obtain ⟨-, -, -, -, -, -, -, -, -, -, e0, -⟩ := idx_facts0 t
  funext x
  unfold iblk0
  rw [View.read_apply]
  show V c main_arg8 _ = V c main_arg8 x
  congr 1
  funext a; apply Fin.ext
  match a with
  | ⟨0, _⟩ => show win0_6.index t (0 : Fin 1) * 256 + 1 * (x 0).val = (x 0).val; rw [e0]; omega
theorem iblk0_7 (c : Dev nD) (t : Fin cfg0.N) : (iblk0 V c 7 t : Vec F S256x256 .f32) = V c main_arg9 := by
  obtain ⟨-, -, -, -, -, -, -, -, -, -, -, e0, e1, -⟩ := idx_facts0 t
  funext x
  unfold iblk0
  rw [View.read_apply]
  show V c main_arg9 _ = V c main_arg9 x
  congr 1
  funext a; apply Fin.ext
  match a with
  | ⟨0, _⟩ => show win0_7.index t (0 : Fin 2) * 256 + 1 * (x 0).val = (x 0).val; rw [e0]; omega
  | ⟨1, _⟩ => show win0_7.index t (1 : Fin 2) * 256 + 1 * (x 1).val = (x 1).val; rw [e1]; omega
theorem iblk0_8 (c : Dev nD) (t : Fin cfg0.N) : (iblk0 V c 8 t : Vec F S256 .f32) = V c main_arg10 := by
  obtain ⟨-, -, -, -, -, -, -, -, -, -, -, -, -, e0⟩ := idx_facts0 t
  funext x
  unfold iblk0
  rw [View.read_apply]
  show V c main_arg10 _ = V c main_arg10 x
  congr 1
  funext a; apply Fin.ext
  match a with
  | ⟨0, _⟩ => show win0_8.index t (0 : Fin 1) * 256 + 1 * (x 0).val = (x 0).val; rw [e0]; omega

abbrev RowF0 : Type := (Fin 512 → Elt F .f32) → Vec F S512x256 .f32 → Vec F S256 .f32 → Vec F S256 .f32 → Vec F S256 .f32 → Vec F S256 .f32 → Vec F S256 .f32 → Vec F S256x256 .f32 → Vec F S256 .f32 → Fin 256 → Elt F .f32

abbrev Pay0 (rowf : RowF0 (F := F)) : Prop :=
  ∀ (v0 : Vec F S1000x512 .f32) (v3 : Vec F S512x256 .f32) (v6 v10 v14 v16 v23 : Vec F S256 .f32) (v30 : Vec F S256x256 .f32) (v33 : Vec F S256 .f32) (i : Fin 1000) (col : Fin 256), k0_pay1 v0 v3 v6 v10 v14 v16 v23 v30 v33 (ix2 i col) = rowf (fun j => v0 (ix2 i j)) v3 v6 v10 v14 v16 v23 v30 v33 col

def G0 (rowf : RowF0 (F := F))
    (c : Dev nD) : S50000x256.Idx → Elt F .f32 := fun idx =>
  rowf (fun j => (V c main_v8 : S50000x512.Idx → Elt F .f32) (ix2 (n0 := 50000) (n1 := 512) (idx 0) j)) (V c main_arg3) (V c main_arg4) (V c main_arg8) (V c main_arg5) (V c main_arg7) (V c main_arg6) (V c main_arg9) (V c main_arg10) (idx 1)

theorem flushed0_eq (rowf : RowF0 (F := F))
    (hpay : Pay0 rowf)
    (c : Dev nD) (t : Fin cfg0.N) :
    (dat0 V c).flushed 9 t = ((cfg0.win 9).blk t).view.read (Elt F) (G0 V rowf c) := by
  show (cfg0.win 9).cut (grid0.coords t) ((dat0 V c).after 9 t) = _
  rw [after0_9]
  unfold out0_9
  rw [View.canon_unit_zero hz0_2]
  simp only [View.ld_unit_zero (S := S1000x512) hz0_2, View.ld_unit_zero (S := S512x256) hz0_2, View.ld_unit_zero (S := S1000x256) hz0_2, View.ld_unit_zero (S := S256x256) hz0_2, View.ld_unit_zero (S := S256) hz0_1]
  rw [iblk0_1, iblk0_2, iblk0_3, iblk0_4, iblk0_5, iblk0_6, iblk0_7, iblk0_8]
  obtain ⟨-, -, e0, e1, -⟩ := idx_facts0 t
  have hN : cfg0.N = 50 := N_0
  funext y
  obtain ⟨i, j, rfl⟩ : ∃ (i : Fin 1000) (j : Fin 256), y = ix2 i j := ⟨y 0, y 1, eq_ix2 y⟩
  rw [View.read_apply]
  show k0_pay1 (iblk0 V c 0 t) (V c main_arg3) (V c main_arg4) (V c main_arg8) (V c main_arg5) (V c main_arg7) (V c main_arg6) (V c main_arg9) (V c main_arg10) (ix2 i j) = G0 V rowf c (((cfg0.win 9).blk t).view.emb (ix2 i j))
  rw [hpay]
  have hr : ((cfg0.win 9).blk t).view.emb (ix2 i j) = ix2 (n0 := 50000) (n1 := 256) ⟨t.val * 1000 + i.val, by have := t.isLt; have := i.isLt; omega⟩ j := by
    funext a; apply Fin.ext
    match a with
    | ⟨0, _⟩ => show win0_9.index t (0 : Fin 2) * 1000 + 1 * i.val = t.val * 1000 + i.val; rw [e0]; omega
    | ⟨1, _⟩ => show win0_9.index t (1 : Fin 2) * 256 + 1 * j.val = j.val; rw [e1]; omega
  rw [hr]
  show rowf (fun jj => (iblk0 V c 0 t : Vec F S1000x512 .f32) (ix2 i jj)) (V c main_arg3) (V c main_arg4) (V c main_arg8) (V c main_arg5) (V c main_arg7) (V c main_arg6) (V c main_arg9) (V c main_arg10) j = rowf (fun jj => (V c main_v8 : S50000x512.Idx → Elt F .f32) (ix2 (n0 := 50000) (n1 := 512) ⟨t.val * 1000 + i.val, _⟩ jj)) (V c main_arg3) (V c main_arg4) (V c main_arg8) (V c main_arg5) (V c main_arg7) (V c main_arg6) (V c main_arg9) (V c main_arg10) j
  exact congrArg (fun f => rowf f (V c main_arg3) (V c main_arg4) (V c main_arg8) (V c main_arg5) (V c main_arg7) (V c main_arg6) (V c main_arg9) (V c main_arg10) j) (funext fun jj => iblk0_0_apply V c t i jj _ rfl)

theorem mem_blk0 (t : Fin cfg0.N) (i : S50000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole main_v9).slice (win0_9.rect t)).set ↔ _
  rw [View.set_slice_whole, Rect.mem_set_unit]
  exact Iff.rfl

theorem cover0 (i : S50000x256.Idx) : ∃ t : Fin cfg0.N, (cfg0.win 9).flush t = true ∧ i ∈ ((cfg0.win 9).blk t).view.set := by
  have hi0 : (i 0).val < 50000 := (i 0).isLt
  have hi1 : (i 1).val < 256 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, e0, e1, -⟩ := idx_facts0 t
  refine ⟨t, flush0_9 t, ?_⟩
  rw [mem_blk0]
  intro a
  match a with
  | ⟨0, _⟩ => show win0_9.index t (0 : Fin 2) * 1000 ≤ (i 0).val ∧ (i 0).val < win0_9.index t (0 : Fin 2) * 1000 + 1000; rw [e0, ht]; omega
  | ⟨1, _⟩ => show win0_9.index t (1 : Fin 2) * 256 ≤ (i 1).val ∧ (i 1).val < win0_9.index t (1 : Fin 2) * 256 + 256; rw [e1]; omega

theorem final0_G (rowf : RowF0 (F := F))
    (hpay : Pay0 rowf)
    (c : Dev nD) : (dat0 V c).arrAt 9 cfg0.N = G0 V rowf c :=
  (dat0 V c).arrAt_eq_of_cover 9 (G0 V rowf c) (fun t _ => flushed0_eq V rowf hpay c t) cover0

theorem final0_apply (rowf : RowF0 (F := F))
    (hpay : Pay0 rowf)
    (c : Dev nD) (r : Fin 50000) (col : Fin 256) :
    ((dat0 V c).arrAt 9 cfg0.N : S50000x256.Idx → Elt F .f32) (ix2 r col) = rowf (fun j => (V c main_v8 : S50000x512.Idx → Elt F .f32) (ix2 r j)) (V c main_arg3) (V c main_arg4) (V c main_arg8) (V c main_arg5) (V c main_arg7) (V c main_arg6) (V c main_arg9) (V c main_arg10) col :=
  congrFun (final0_G V rowf hpay c) (ix2 r col)

end Cert.KernelIdeal.Hand
end
-- ==== Proof.KIFinal1.lean ====
import proofs.«423125_j18107582120449_1_alg».proof.Proof.KIBody1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem hz1_2 : (![0, 0] : Fin 2 → Nat) = fun _ => 0 := funext fun a => by fin_cases a <;> rfl
theorem hz1_1 : (![0] : Fin 1 → Nat) = fun _ => 0 := funext fun a => by fin_cases a <;> rfl

theorem idx_facts1 : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 1) = 0 ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

theorem iblk1_0_apply (c : Dev nD) (t : Fin cfg1.N) (i : Fin 1000) (j : Fin 256) (r : Fin 50000) (hr : r.val = t.val * 1000 + i.val) :
    (iblk1 V c 0 t : Vec F S1000x256 .f32) (ix2 i j) = (V c main_v14 : S50000x256.Idx → Elt F .f32) (ix2 r j) := by
  obtain ⟨e0, e1, -⟩ := idx_facts1 t
  unfold iblk1
  rw [View.read_apply]
  show V c main_v14 _ = V c main_v14 _
  congr 1
  funext a; apply Fin.ext
  match a with
  | ⟨0, _⟩ => show win1_0.index t (0 : Fin 2) * 1000 + 1 * i.val = r.val; rw [e0, hr]; omega
  | ⟨1, _⟩ => show win1_0.index t (1 : Fin 2) * 256 + 1 * j.val = j.val; rw [e1]; omega

theorem iblk1_1 (c : Dev nD) (t : Fin cfg1.N) : (iblk1 V c 1 t : Vec F S256x256 .f32) = V c main_arg11 := by
  obtain ⟨-, -, -, -, e0, e1, -⟩ := idx_facts1 t
  funext x
  unfold iblk1
  rw [View.read_apply]
  show V c main_arg11 _ = V c main_arg11 x
  congr 1
  funext a; apply Fin.ext
  match a with
  | ⟨0, _⟩ => show win1_1.index t (0 : Fin 2) * 256 + 1 * (x 0).val = (x 0).val; rw [e0]; omega
  | ⟨1, _⟩ => show win1_1.index t (1 : Fin 2) * 256 + 1 * (x 1).val = (x 1).val; rw [e1]; omega
theorem iblk1_2 (c : Dev nD) (t : Fin cfg1.N) : (iblk1 V c 2 t : Vec F S256 .f32) = V c main_arg12 := by
  obtain ⟨-, -, -, -, -, -, e0, -⟩ := idx_facts1 t
  funext x
  unfold iblk1
  rw [View.read_apply]
  show V c main_arg12 _ = V c main_arg12 x
  congr 1
  funext a; apply Fin.ext
  match a with
  | ⟨0, _⟩ => show win1_2.index t (0 : Fin 1) * 256 + 1 * (x 0).val = (x 0).val; rw [e0]; omega
theorem iblk1_3 (c : Dev nD) (t : Fin cfg1.N) : (iblk1 V c 3 t : Vec F S256 .f32) = V c main_arg13 := by
  obtain ⟨-, -, -, -, -, -, -, e0, -⟩ := idx_facts1 t
  funext x
  unfold iblk1
  rw [View.read_apply]
  show V c main_arg13 _ = V c main_arg13 x
  congr 1
  funext a; apply Fin.ext
  match a with
  | ⟨0, _⟩ => show win1_3.index t (0 : Fin 1) * 256 + 1 * (x 0).val = (x 0).val; rw [e0]; omega
theorem iblk1_4 (c : Dev nD) (t : Fin cfg1.N) : (iblk1 V c 4 t : Vec F S256 .f32) = V c main_arg14 := by
  obtain ⟨-, -, -, -, -, -, -, -, e0, -⟩ := idx_facts1 t
  funext x
  unfold iblk1
  rw [View.read_apply]
  show V c main_arg14 _ = V c main_arg14 x
  congr 1
  funext a; apply Fin.ext
  match a with
  | ⟨0, _⟩ => show win1_4.index t (0 : Fin 1) * 256 + 1 * (x 0).val = (x 0).val; rw [e0]; omega
theorem iblk1_5 (c : Dev nD) (t : Fin cfg1.N) : (iblk1 V c 5 t : Vec F S256 .f32) = V c main_arg15 := by
  obtain ⟨-, -, -, -, -, -, -, -, -, e0, -⟩ := idx_facts1 t
  funext x
  unfold iblk1
  rw [View.read_apply]
  show V c main_arg15 _ = V c main_arg15 x
  congr 1
  funext a; apply Fin.ext
  match a with
  | ⟨0, _⟩ => show win1_5.index t (0 : Fin 1) * 256 + 1 * (x 0).val = (x 0).val; rw [e0]; omega
theorem iblk1_6 (c : Dev nD) (t : Fin cfg1.N) : (iblk1 V c 6 t : Vec F S256 .f32) = V c main_arg16 := by
  obtain ⟨-, -, -, -, -, -, -, -, -, -, e0, -⟩ := idx_facts1 t
  funext x
  unfold iblk1
  rw [View.read_apply]
  show V c main_arg16 _ = V c main_arg16 x
  congr 1
  funext a; apply Fin.ext
  match a with
  | ⟨0, _⟩ => show win1_6.index t (0 : Fin 1) * 256 + 1 * (x 0).val = (x 0).val; rw [e0]; omega
theorem iblk1_7 (c : Dev nD) (t : Fin cfg1.N) : (iblk1 V c 7 t : Vec F S256x256 .f32) = V c main_arg17 := by
  obtain ⟨-, -, -, -, -, -, -, -, -, -, -, e0, e1, -⟩ := idx_facts1 t
  funext x
  unfold iblk1
  rw [View.read_apply]
  show V c main_arg17 _ = V c main_arg17 x
  congr 1
  funext a; apply Fin.ext
  match a with
  | ⟨0, _⟩ => show win1_7.index t (0 : Fin 2) * 256 + 1 * (x 0).val = (x 0).val; rw [e0]; omega
  | ⟨1, _⟩ => show win1_7.index t (1 : Fin 2) * 256 + 1 * (x 1).val = (x 1).val; rw [e1]; omega
theorem iblk1_8 (c : Dev nD) (t : Fin cfg1.N) : (iblk1 V c 8 t : Vec F S256 .f32) = V c main_arg18 := by
  obtain ⟨-, -, -, -, -, -, -, -, -, -, -, -, -, e0⟩ := idx_facts1 t
  funext x
  unfold iblk1
  rw [View.read_apply]
  show V c main_arg18 _ = V c main_arg18 x
  congr 1
  funext a; apply Fin.ext
  match a with
  | ⟨0, _⟩ => show win1_8.index t (0 : Fin 1) * 256 + 1 * (x 0).val = (x 0).val; rw [e0]; omega

abbrev RowF1 : Type := (Fin 256 → Elt F .f32) → Vec F S256x256 .f32 → Vec F S256 .f32 → Vec F S256 .f32 → Vec F S256 .f32 → Vec F S256 .f32 → Vec F S256 .f32 → Vec F S256x256 .f32 → Vec F S256 .f32 → Fin 256 → Elt F .f32

abbrev Pay1 (rowf : RowF1 (F := F)) : Prop :=
  ∀ (v0 : Vec F S1000x256 .f32) (v3 : Vec F S256x256 .f32) (v6 v10 v14 v16 v23 : Vec F S256 .f32) (v30 : Vec F S256x256 .f32) (v33 : Vec F S256 .f32) (i : Fin 1000) (col : Fin 256), k1_pay1 v0 v3 v6 v10 v14 v16 v23 v30 v33 (ix2 i col) = rowf (fun j => v0 (ix2 i j)) v3 v6 v10 v14 v16 v23 v30 v33 col

def G1 (rowf : RowF1 (F := F))
    (c : Dev nD) : S50000x256.Idx → Elt F .f32 := fun idx =>
  rowf (fun j => (V c main_v14 : S50000x256.Idx → Elt F .f32) (ix2 (n0 := 50000) (n1 := 256) (idx 0) j)) (V c main_arg11) (V c main_arg12) (V c main_arg16) (V c main_arg13) (V c main_arg15) (V c main_arg14) (V c main_arg17) (V c main_arg18) (idx 1)

theorem flushed1_eq (rowf : RowF1 (F := F))
    (hpay : Pay1 rowf)
    (c : Dev nD) (t : Fin cfg1.N) :
    (dat1 V c).flushed 9 t = ((cfg1.win 9).blk t).view.read (Elt F) (G1 V rowf c) := by
  show (cfg1.win 9).cut (grid1.coords t) ((dat1 V c).after 9 t) = _
  rw [after1_9]
  unfold out1_9
  rw [View.canon_unit_zero hz1_2]
  simp only [View.ld_unit_zero (S := S1000x256) hz1_2, View.ld_unit_zero (S := S256x256) hz1_2, View.ld_unit_zero (S := S256) hz1_1]
  rw [iblk1_1, iblk1_2, iblk1_3, iblk1_4, iblk1_5, iblk1_6, iblk1_7, iblk1_8]
  obtain ⟨-, -, e0, e1, -⟩ := idx_facts1 t
  have hN : cfg1.N = 50 := N_1
  funext y
  obtain ⟨i, j, rfl⟩ : ∃ (i : Fin 1000) (j : Fin 256), y = ix2 i j := ⟨y 0, y 1, eq_ix2 y⟩
  rw [View.read_apply]
  show k1_pay1 (iblk1 V c 0 t) (V c main_arg11) (V c main_arg12) (V c main_arg16) (V c main_arg13) (V c main_arg15) (V c main_arg14) (V c main_arg17) (V c main_arg18) (ix2 i j) = G1 V rowf c (((cfg1.win 9).blk t).view.emb (ix2 i j))
  rw [hpay]
  have hr : ((cfg1.win 9).blk t).view.emb (ix2 i j) = ix2 (n0 := 50000) (n1 := 256) ⟨t.val * 1000 + i.val, by have := t.isLt; have := i.isLt; omega⟩ j := by
    funext a; apply Fin.ext
    match a with
    | ⟨0, _⟩ => show win1_9.index t (0 : Fin 2) * 1000 + 1 * i.val = t.val * 1000 + i.val; rw [e0]; omega
    | ⟨1, _⟩ => show win1_9.index t (1 : Fin 2) * 256 + 1 * j.val = j.val; rw [e1]; omega
  rw [hr]
  show rowf (fun jj => (iblk1 V c 0 t : Vec F S1000x256 .f32) (ix2 i jj)) (V c main_arg11) (V c main_arg12) (V c main_arg16) (V c main_arg13) (V c main_arg15) (V c main_arg14) (V c main_arg17) (V c main_arg18) j = rowf (fun jj => (V c main_v14 : S50000x256.Idx → Elt F .f32) (ix2 (n0 := 50000) (n1 := 256) ⟨t.val * 1000 + i.val, _⟩ jj)) (V c main_arg11) (V c main_arg12) (V c main_arg16) (V c main_arg13) (V c main_arg15) (V c main_arg14) (V c main_arg17) (V c main_arg18) j
  exact congrArg (fun f => rowf f (V c main_arg11) (V c main_arg12) (V c main_arg16) (V c main_arg13) (V c main_arg15) (V c main_arg14) (V c main_arg17) (V c main_arg18) j) (funext fun jj => iblk1_0_apply V c t i jj _ rfl)

theorem mem_blk1 (t : Fin cfg1.N) (i : S50000x256.Idx) :
    i ∈ ((cfg1.win 9).blk t).view.set ↔ ∀ a : Fin 2, win1_9.index t a * S1000x256.size a ≤ (i a).val ∧ (i a).val < win1_9.index t a * S1000x256.size a + S1000x256.size a := by
  show i ∈ ((View.whole main_v15).slice (win1_9.rect t)).set ↔ _
  rw [View.set_slice_whole, Rect.mem_set_unit]
  exact Iff.rfl

theorem cover1 (i : S50000x256.Idx) : ∃ t : Fin cfg1.N, (cfg1.win 9).flush t = true ∧ i ∈ ((cfg1.win 9).blk t).view.set := by
  have hi0 : (i 0).val < 50000 := (i 0).isLt
  have hi1 : (i 1).val < 256 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, e0, e1, -⟩ := idx_facts1 t
  refine ⟨t, flush1_9 t, ?_⟩
  rw [mem_blk1]
  intro a
  match a with
  | ⟨0, _⟩ => show win1_9.index t (0 : Fin 2) * 1000 ≤ (i 0).val ∧ (i 0).val < win1_9.index t (0 : Fin 2) * 1000 + 1000; rw [e0, ht]; omega
  | ⟨1, _⟩ => show win1_9.index t (1 : Fin 2) * 256 ≤ (i 1).val ∧ (i 1).val < win1_9.index t (1 : Fin 2) * 256 + 256; rw [e1]; omega

theorem final1_G (rowf : RowF1 (F := F))
    (hpay : Pay1 rowf)
    (c : Dev nD) : (dat1 V c).arrAt 9 cfg1.N = G1 V rowf c :=
  (dat1 V c).arrAt_eq_of_cover 9 (G1 V rowf c) (fun t _ => flushed1_eq V rowf hpay c t) cover1

theorem final1_apply (rowf : RowF1 (F := F))
    (hpay : Pay1 rowf)
    (c : Dev nD) (r : Fin 50000) (col : Fin 256) :
    ((dat1 V c).arrAt 9 cfg1.N : S50000x256.Idx → Elt F .f32) (ix2 r col) = rowf (fun j => (V c main_v14 : S50000x256.Idx → Elt F .f32) (ix2 r j)) (V c main_arg11) (V c main_arg12) (V c main_arg16) (V c main_arg13) (V c main_arg15) (V c main_arg14) (V c main_arg17) (V c main_arg18) col :=
  congrFun (final1_G V rowf hpay c) (ix2 r col)

end Cert.KernelIdeal.Hand
end
-- ==== Proof.KIFinal2.lean ====
import proofs.«423125_j18107582120449_1_alg».proof.Proof.KIBody2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem hz2_2 : (![0, 0] : Fin 2 → Nat) = fun _ => 0 := funext fun a => by fin_cases a <;> rfl
theorem hz2_1 : (![0] : Fin 1 → Nat) = fun _ => 0 := funext fun a => by fin_cases a <;> rfl

theorem idx_facts2 : ∀ t : Fin cfg2.N,
    win2_0.index t (0 : Fin 2) = t.val ∧ win2_0.index t (1 : Fin 2) = 0
    ∧ win2_9.index t (0 : Fin 2) = t.val ∧ win2_9.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 1) = 0 ∧ win2_6.index t (0 : Fin 1) = 0
    ∧ win2_7.index t (0 : Fin 2) = 0 ∧ win2_7.index t (1 : Fin 2) = 0
    ∧ win2_8.index t (0 : Fin 1) = 0 :=
  (by decide +kernel : ∀ t : Fin grid2.N, _)

theorem iblk2_0_apply (c : Dev nD) (t : Fin cfg2.N) (i : Fin 1000) (j : Fin 256) (r : Fin 50000) (hr : r.val = t.val * 1000 + i.val) :
    (iblk2 V c 0 t : Vec F S1000x256 .f32) (ix2 i j) = (V c main_v20 : S50000x256.Idx → Elt F .f32) (ix2 r j) := by
  obtain ⟨e0, e1, -⟩ := idx_facts2 t
  unfold iblk2
  rw [View.read_apply]
  show V c main_v20 _ = V c main_v20 _
  congr 1
  funext a; apply Fin.ext
  match a with
  | ⟨0, _⟩ => show win2_0.index t (0 : Fin 2) * 1000 + 1 * i.val = r.val; rw [e0, hr]; omega
  | ⟨1, _⟩ => show win2_0.index t (1 : Fin 2) * 256 + 1 * j.val = j.val; rw [e1]; omega

theorem iblk2_1 (c : Dev nD) (t : Fin cfg2.N) : (iblk2 V c 1 t : Vec F S256x256 .f32) = V c main_arg19 := by
  obtain ⟨-, -, -, -, e0, e1, -⟩ := idx_facts2 t
  funext x
  unfold iblk2
  rw [View.read_apply]
  show V c main_arg19 _ = V c main_arg19 x
  congr 1
  funext a; apply Fin.ext
  match a with
  | ⟨0, _⟩ => show win2_1.index t (0 : Fin 2) * 256 + 1 * (x 0).val = (x 0).val; rw [e0]; omega
  | ⟨1, _⟩ => show win2_1.index t (1 : Fin 2) * 256 + 1 * (x 1).val = (x 1).val; rw [e1]; omega
theorem iblk2_2 (c : Dev nD) (t : Fin cfg2.N) : (iblk2 V c 2 t : Vec F S256 .f32) = V c main_arg20 := by
  obtain ⟨-, -, -, -, -, -, e0, -⟩ := idx_facts2 t
  funext x
  unfold iblk2
  rw [View.read_apply]
  show V c main_arg20 _ = V c main_arg20 x
  congr 1
  funext a; apply Fin.ext
  match a with
  | ⟨0, _⟩ => show win2_2.index t (0 : Fin 1) * 256 + 1 * (x 0).val = (x 0).val; rw [e0]; omega
theorem iblk2_3 (c : Dev nD) (t : Fin cfg2.N) : (iblk2 V c 3 t : Vec F S256 .f32) = V c main_arg21 := by
  obtain ⟨-, -, -, -, -, -, -, e0, -⟩ := idx_facts2 t
  funext x
  unfold iblk2
  rw [View.read_apply]
  show V c main_arg21 _ = V c main_arg21 x
  congr 1
  funext a; apply Fin.ext
  match a with
  | ⟨0, _⟩ => show win2_3.index t (0 : Fin 1) * 256 + 1 * (x 0).val = (x 0).val; rw [e0]; omega
theorem iblk2_4 (c : Dev nD) (t : Fin cfg2.N) : (iblk2 V c 4 t : Vec F S256 .f32) = V c main_arg22 := by
  obtain ⟨-, -, -, -, -, -, -, -, e0, -⟩ := idx_facts2 t
  funext x
  unfold iblk2
  rw [View.read_apply]
  show V c main_arg22 _ = V c main_arg22 x
  congr 1
  funext a; apply Fin.ext
  match a with
  | ⟨0, _⟩ => show win2_4.index t (0 : Fin 1) * 256 + 1 * (x 0).val = (x 0).val; rw [e0]; omega
theorem iblk2_5 (c : Dev nD) (t : Fin cfg2.N) : (iblk2 V c 5 t : Vec F S256 .f32) = V c main_arg23 := by
  obtain ⟨-, -, -, -, -, -, -, -, -, e0, -⟩ := idx_facts2 t
  funext x
  unfold iblk2
  rw [View.read_apply]
  show V c main_arg23 _ = V c main_arg23 x
  congr 1
  funext a; apply Fin.ext
  match a with
  | ⟨0, _⟩ => show win2_5.index t (0 : Fin 1) * 256 + 1 * (x 0).val = (x 0).val; rw [e0]; omega
theorem iblk2_6 (c : Dev nD) (t : Fin cfg2.N) : (iblk2 V c 6 t : Vec F S256 .f32) = V c main_arg24 := by
  obtain ⟨-, -, -, -, -, -, -, -, -, -, e0, -⟩ := idx_facts2 t
  funext x
  unfold iblk2
  rw [View.read_apply]
  show V c main_arg24 _ = V c main_arg24 x
  congr 1
  funext a; apply Fin.ext
  match a with
  | ⟨0, _⟩ => show win2_6.index t (0 : Fin 1) * 256 + 1 * (x 0).val = (x 0).val; rw [e0]; omega
theorem iblk2_7 (c : Dev nD) (t : Fin cfg2.N) : (iblk2 V c 7 t : Vec F S256x256 .f32) = V c main_arg25 := by
  obtain ⟨-, -, -, -, -, -, -, -, -, -, -, e0, e1, -⟩ := idx_facts2 t
  funext x
  unfold iblk2
  rw [View.read_apply]
  show V c main_arg25 _ = V c main_arg25 x
  congr 1
  funext a; apply Fin.ext
  match a with
  | ⟨0, _⟩ => show win2_7.index t (0 : Fin 2) * 256 + 1 * (x 0).val = (x 0).val; rw [e0]; omega
  | ⟨1, _⟩ => show win2_7.index t (1 : Fin 2) * 256 + 1 * (x 1).val = (x 1).val; rw [e1]; omega
theorem iblk2_8 (c : Dev nD) (t : Fin cfg2.N) : (iblk2 V c 8 t : Vec F S256 .f32) = V c main_arg26 := by
  obtain ⟨-, -, -, -, -, -, -, -, -, -, -, -, -, e0⟩ := idx_facts2 t
  funext x
  unfold iblk2
  rw [View.read_apply]
  show V c main_arg26 _ = V c main_arg26 x
  congr 1
  funext a; apply Fin.ext
  match a with
  | ⟨0, _⟩ => show win2_8.index t (0 : Fin 1) * 256 + 1 * (x 0).val = (x 0).val; rw [e0]; omega

abbrev RowF2 : Type := (Fin 256 → Elt F .f32) → Vec F S256x256 .f32 → Vec F S256 .f32 → Vec F S256 .f32 → Vec F S256 .f32 → Vec F S256 .f32 → Vec F S256 .f32 → Vec F S256x256 .f32 → Vec F S256 .f32 → Fin 256 → Elt F .f32

abbrev Pay2 (rowf : RowF2 (F := F)) : Prop :=
  ∀ (v0 : Vec F S1000x256 .f32) (v3 : Vec F S256x256 .f32) (v6 v10 v14 v16 v23 : Vec F S256 .f32) (v30 : Vec F S256x256 .f32) (v33 : Vec F S256 .f32) (i : Fin 1000) (col : Fin 256), k2_pay1 v0 v3 v6 v10 v14 v16 v23 v30 v33 (ix2 i col) = rowf (fun j => v0 (ix2 i j)) v3 v6 v10 v14 v16 v23 v30 v33 col

def G2 (rowf : RowF2 (F := F))
    (c : Dev nD) : S50000x256.Idx → Elt F .f32 := fun idx =>
  rowf (fun j => (V c main_v20 : S50000x256.Idx → Elt F .f32) (ix2 (n0 := 50000) (n1 := 256) (idx 0) j)) (V c main_arg19) (V c main_arg20) (V c main_arg24) (V c main_arg21) (V c main_arg23) (V c main_arg22) (V c main_arg25) (V c main_arg26) (idx 1)

theorem flushed2_eq (rowf : RowF2 (F := F))
    (hpay : Pay2 rowf)
    (c : Dev nD) (t : Fin cfg2.N) :
    (dat2 V c).flushed 9 t = ((cfg2.win 9).blk t).view.read (Elt F) (G2 V rowf c) := by
  show (cfg2.win 9).cut (grid2.coords t) ((dat2 V c).after 9 t) = _
  rw [after2_9]
  unfold out2_9
  rw [View.canon_unit_zero hz2_2]
  simp only [View.ld_unit_zero (S := S1000x256) hz2_2, View.ld_unit_zero (S := S256x256) hz2_2, View.ld_unit_zero (S := S256) hz2_1]
  rw [iblk2_1, iblk2_2, iblk2_3, iblk2_4, iblk2_5, iblk2_6, iblk2_7, iblk2_8]
  obtain ⟨-, -, e0, e1, -⟩ := idx_facts2 t
  have hN : cfg2.N = 50 := N_2
  funext y
  obtain ⟨i, j, rfl⟩ : ∃ (i : Fin 1000) (j : Fin 256), y = ix2 i j := ⟨y 0, y 1, eq_ix2 y⟩
  rw [View.read_apply]
  show k2_pay1 (iblk2 V c 0 t) (V c main_arg19) (V c main_arg20) (V c main_arg24) (V c main_arg21) (V c main_arg23) (V c main_arg22) (V c main_arg25) (V c main_arg26) (ix2 i j) = G2 V rowf c (((cfg2.win 9).blk t).view.emb (ix2 i j))
  rw [hpay]
  have hr : ((cfg2.win 9).blk t).view.emb (ix2 i j) = ix2 (n0 := 50000) (n1 := 256) ⟨t.val * 1000 + i.val, by have := t.isLt; have := i.isLt; omega⟩ j := by
    funext a; apply Fin.ext
    match a with
    | ⟨0, _⟩ => show win2_9.index t (0 : Fin 2) * 1000 + 1 * i.val = t.val * 1000 + i.val; rw [e0]; omega
    | ⟨1, _⟩ => show win2_9.index t (1 : Fin 2) * 256 + 1 * j.val = j.val; rw [e1]; omega
  rw [hr]
  show rowf (fun jj => (iblk2 V c 0 t : Vec F S1000x256 .f32) (ix2 i jj)) (V c main_arg19) (V c main_arg20) (V c main_arg24) (V c main_arg21) (V c main_arg23) (V c main_arg22) (V c main_arg25) (V c main_arg26) j = rowf (fun jj => (V c main_v20 : S50000x256.Idx → Elt F .f32) (ix2 (n0 := 50000) (n1 := 256) ⟨t.val * 1000 + i.val, _⟩ jj)) (V c main_arg19) (V c main_arg20) (V c main_arg24) (V c main_arg21) (V c main_arg23) (V c main_arg22) (V c main_arg25) (V c main_arg26) j
  exact congrArg (fun f => rowf f (V c main_arg19) (V c main_arg20) (V c main_arg24) (V c main_arg21) (V c main_arg23) (V c main_arg22) (V c main_arg25) (V c main_arg26) j) (funext fun jj => iblk2_0_apply V c t i jj _ rfl)

theorem mem_blk2 (t : Fin cfg2.N) (i : S50000x256.Idx) :
    i ∈ ((cfg2.win 9).blk t).view.set ↔ ∀ a : Fin 2, win2_9.index t a * S1000x256.size a ≤ (i a).val ∧ (i a).val < win2_9.index t a * S1000x256.size a + S1000x256.size a := by
  show i ∈ ((View.whole main_v21).slice (win2_9.rect t)).set ↔ _
  rw [View.set_slice_whole, Rect.mem_set_unit]
  exact Iff.rfl

theorem cover2 (i : S50000x256.Idx) : ∃ t : Fin cfg2.N, (cfg2.win 9).flush t = true ∧ i ∈ ((cfg2.win 9).blk t).view.set := by
  have hi0 : (i 0).val < 50000 := (i 0).isLt
  have hi1 : (i 1).val < 256 := (i 1).isLt
  have hN : cfg2.N = 50 := N_2
  obtain ⟨t, ht⟩ : ∃ t : Fin cfg2.N, t.val = (i 0).val / 1000 := ⟨⟨(i 0).val / 1000, by rw [hN]; omega⟩, rfl⟩
  obtain ⟨-, -, e0, e1, -⟩ := idx_facts2 t
  refine ⟨t, flush2_9 t, ?_⟩
  rw [mem_blk2]
  intro a
  match a with
  | ⟨0, _⟩ => show win2_9.index t (0 : Fin 2) * 1000 ≤ (i 0).val ∧ (i 0).val < win2_9.index t (0 : Fin 2) * 1000 + 1000; rw [e0, ht]; omega
  | ⟨1, _⟩ => show win2_9.index t (1 : Fin 2) * 256 ≤ (i 1).val ∧ (i 1).val < win2_9.index t (1 : Fin 2) * 256 + 256; rw [e1]; omega

theorem final2_G (rowf : RowF2 (F := F))
    (hpay : Pay2 rowf)
    (c : Dev nD) : (dat2 V c).arrAt 9 cfg2.N = G2 V rowf c :=
  (dat2 V c).arrAt_eq_of_cover 9 (G2 V rowf c) (fun t _ => flushed2_eq V rowf hpay c t) cover2

theorem final2_apply (rowf : RowF2 (F := F))
    (hpay : Pay2 rowf)
    (c : Dev nD) (r : Fin 50000) (col : Fin 256) :
    ((dat2 V c).arrAt 9 cfg2.N : S50000x256.Idx → Elt F .f32) (ix2 r col) = rowf (fun j => (V c main_v20 : S50000x256.Idx → Elt F .f32) (ix2 r j)) (V c main_arg19) (V c main_arg20) (V c main_arg24) (V c main_arg21) (V c main_arg23) (V c main_arg22) (V c main_arg25) (V c main_arg26) col :=
  congrFun (final2_G V rowf hpay c) (ix2 r col)

end Cert.KernelIdeal.Hand
end
-- ==== Proof.KIFinal3.lean ====
import proofs.«423125_j18107582120449_1_alg».proof.Proof.KIBody3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem hz3_2 : (![0, 0] : Fin 2 → Nat) = fun _ => 0 := funext fun a => by fin_cases a <;> rfl
theorem hz3_1 : (![0] : Fin 1 → Nat) = fun _ => 0 := funext fun a => by fin_cases a <;> rfl

theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem iblk3_0 (c : Dev nD) (t : Fin cfg3.N) : (iblk3 V c 0 t : Vec F S64x768 .f32) = V c main_v31 := by
  obtain ⟨e0, e1, -⟩ := idx_facts3 t
  funext x
  unfold iblk3
  rw [View.read_apply]
  show V c main_v31 _ = V c main_v31 x
  congr 1
  funext a; apply Fin.ext
  match a with
  | ⟨0, _⟩ => show win3_0.index t (0 : Fin 2) * 64 + 1 * (x 0).val = (x 0).val; rw [e0]; omega
  | ⟨1, _⟩ => show win3_0.index t (1 : Fin 2) * 768 + 1 * (x 1).val = (x 1).val; rw [e1]; omega
theorem iblk3_1 (c : Dev nD) (t : Fin cfg3.N) : (iblk3 V c 1 t : Vec F S768x64 .f32) = V c main_arg27 := by
  obtain ⟨-, -, e0, e1, -⟩ := idx_facts3 t
  funext x
  unfold iblk3
  rw [View.read_apply]
  show V c main_arg27 _ = V c main_arg27 x
  congr 1
  funext a; apply Fin.ext
  match a with
  | ⟨0, _⟩ => show win3_1.index t (0 : Fin 2) * 768 + 1 * (x 0).val = (x 0).val; rw [e0]; omega
  | ⟨1, _⟩ => show win3_1.index t (1 : Fin 2) * 64 + 1 * (x 1).val = (x 1).val; rw [e1]; omega
theorem iblk3_2 (c : Dev nD) (t : Fin cfg3.N) : (iblk3 V c 2 t : Vec F S64 .f32) = V c main_arg28 := by
  obtain ⟨-, -, -, -, e0, -⟩ := idx_facts3 t
  funext x
  unfold iblk3
  rw [View.read_apply]
  show V c main_arg28 _ = V c main_arg28 x
  congr 1
  funext a; apply Fin.ext
  match a with
  | ⟨0, _⟩ => show win3_2.index t (0 : Fin 1) * 64 + 1 * (x 0).val = (x 0).val; rw [e0]; omega
theorem iblk3_3 (c : Dev nD) (t : Fin cfg3.N) : (iblk3 V c 3 t : Vec F S64x2 .f32) = V c main_arg29 := by
  obtain ⟨-, -, -, -, -, e0, e1, -⟩ := idx_facts3 t
  funext x
  unfold iblk3
  rw [View.read_apply]
  show V c main_arg29 _ = V c main_arg29 x
  congr 1
  funext a; apply Fin.ext
  match a with
  | ⟨0, _⟩ => show win3_3.index t (0 : Fin 2) * 64 + 1 * (x 0).val = (x 0).val; rw [e0]; omega
  | ⟨1, _⟩ => show win3_3.index t (1 : Fin 2) * 2 + 1 * (x 1).val = (x 1).val; rw [e1]; omega
theorem iblk3_4 (c : Dev nD) (t : Fin cfg3.N) : (iblk3 V c 4 t : Vec F S2 .f32) = V c main_arg30 := by
  obtain ⟨-, -, -, -, -, -, -, e0, -⟩ := idx_facts3 t
  funext x
  unfold iblk3
  rw [View.read_apply]
  show V c main_arg30 _ = V c main_arg30 x
  congr 1
  funext a; apply Fin.ext
  match a with
  | ⟨0, _⟩ => show win3_4.index t (0 : Fin 1) * 2 + 1 * (x 0).val = (x 0).val; rw [e0]; omega

theorem flushed3_5_eq (c : Dev nD) (t : Fin cfg3.N) :
    (dat3 V c).flushed 5 t = ((cfg3.win 5).blk t).view.read (Elt F) (k3_pay1 (V c main_v31) (V c main_arg27) (V c main_arg28) (V c main_arg29) (V c main_arg30)) := by
  show (cfg3.win 5).cut (grid3.coords t) ((dat3 V c).after 5 t) = _
  rw [after3_5]
  unfold out3_5
  rw [View.canon_unit_zero hz3_2]
  simp only [View.ld_unit_zero (S := S64x768) hz3_2, View.ld_unit_zero (S := S768x64) hz3_2, View.ld_unit_zero (S := S64) hz3_1, View.ld_unit_zero (S := S64x2) hz3_2, View.ld_unit_zero (S := S2) hz3_1]
  rw [iblk3_0, iblk3_1, iblk3_2, iblk3_3, iblk3_4]
  obtain ⟨-, -, -, -, -, -, -, -, e0, e1, -⟩ := idx_facts3 t
  funext y
  rw [View.read_apply]
  show k3_pay1 (V c main_v31) (V c main_arg27) (V c main_arg28) (V c main_arg29) (V c main_arg30) ((cfg3.win 5).xinj (grid3.coords t) y) = k3_pay1 (V c main_v31) (V c main_arg27) (V c main_arg28) (V c main_arg29) (V c main_arg30) (((cfg3.win 5).blk t).view.emb y)
  congr 1
  funext a; apply Fin.ext
  match a with
  | ⟨0, _⟩ => show (y 0).val = win3_5.index t (0 : Fin 2) * 64 + 1 * (y 0).val; rw [e0]; omega
  | ⟨1, _⟩ => show (y 1).val = win3_5.index t (1 : Fin 2) * 2 + 1 * (y 1).val; rw [e1]; omega

theorem cover3_5_arr (i : S64x2.Idx) : ∃ t : Fin cfg3.N, (cfg3.win 5).flush t = true ∧ i ∈ ((cfg3.win 5).blk t).view.set := by
  have hi0 : (i 0).val < 64 := (i 0).isLt
  have hi1 : (i 1).val < 2 := (i 1).isLt
  obtain ⟨-, -, -, -, -, -, -, -, e0, e1, -⟩ := idx_facts3 t3_0
  refine ⟨t3_0, flush3_5 t3_0, ?_⟩
  show i ∈ ((View.whole main_v32_0).slice (win3_5.rect t3_0)).set
  rw [View.set_slice_whole, Rect.mem_set_unit]
  intro a
  match a with
  | ⟨0, _⟩ => show win3_5.index t3_0 (0 : Fin 2) * 64 ≤ (i 0).val ∧ (i 0).val < win3_5.index t3_0 (0 : Fin 2) * 64 + 64; rw [e0]; omega
  | ⟨1, _⟩ => show win3_5.index t3_0 (1 : Fin 2) * 2 ≤ (i 1).val ∧ (i 1).val < win3_5.index t3_0 (1 : Fin 2) * 2 + 2; rw [e1]; omega

theorem final3_5 (c : Dev nD) : (dat3 V c).arrAt 5 cfg3.N = k3_pay1 (V c main_v31) (V c main_arg27) (V c main_arg28) (V c main_arg29) (V c main_arg30) :=
  (dat3 V c).arrAt_eq_of_cover 5 (k3_pay1 (V c main_v31) (V c main_arg27) (V c main_arg28) (V c main_arg29) (V c main_arg30)) (fun t _ => flushed3_5_eq V c t) cover3_5_arr

theorem flushed3_6_eq (c : Dev nD) (t : Fin cfg3.N) :
    (dat3 V c).flushed 6 t = ((cfg3.win 6).blk t).view.read (Elt F) (k3_pay2 (V c main_v31) (V c main_arg27) (V c main_arg28) (V c main_arg29) (V c main_arg30)) := by
  show (cfg3.win 6).cut (grid3.coords t) ((dat3 V c).after 6 t) = _
  rw [after3_6]
  unfold out3_6
  rw [View.canon_unit_zero hz3_2]
  simp only [View.ld_unit_zero (S := S64x768) hz3_2, View.ld_unit_zero (S := S768x64) hz3_2, View.ld_unit_zero (S := S64) hz3_1, View.ld_unit_zero (S := S64x2) hz3_2, View.ld_unit_zero (S := S2) hz3_1]
  rw [iblk3_0, iblk3_1, iblk3_2, iblk3_3, iblk3_4]
  obtain ⟨-, -, -, -, -, -, -, -, -, -, e0, e1⟩ := idx_facts3 t
  funext y
  rw [View.read_apply]
  show k3_pay2 (V c main_v31) (V c main_arg27) (V c main_arg28) (V c main_arg29) (V c main_arg30) ((cfg3.win 6).xinj (grid3.coords t) y) = k3_pay2 (V c main_v31) (V c main_arg27) (V c main_arg28) (V c main_arg29) (V c main_arg30) (((cfg3.win 6).blk t).view.emb y)
  congr 1
  funext a; apply Fin.ext
  match a with
  | ⟨0, _⟩ => show (y 0).val = win3_6.index t (0 : Fin 2) * 64 + 1 * (y 0).val; rw [e0]; omega
  | ⟨1, _⟩ => show (y 1).val = win3_6.index t (1 : Fin 2) * 2 + 1 * (y 1).val; rw [e1]; omega

theorem cover3_6_arr (i : S64x2.Idx) : ∃ t : Fin cfg3.N, (cfg3.win 6).flush t = true ∧ i ∈ ((cfg3.win 6).blk t).view.set := by
  have hi0 : (i 0).val < 64 := (i 0).isLt
  have hi1 : (i 1).val < 2 := (i 1).isLt
  obtain ⟨-, -, -, -, -, -, -, -, -, -, e0, e1⟩ := idx_facts3 t3_0
  refine ⟨t3_0, flush3_6 t3_0, ?_⟩
  show i ∈ ((View.whole main_v32_1).slice (win3_6.rect t3_0)).set
  rw [View.set_slice_whole, Rect.mem_set_unit]
  intro a
  match a with
  | ⟨0, _⟩ => show win3_6.index t3_0 (0 : Fin 2) * 64 ≤ (i 0).val ∧ (i 0).val < win3_6.index t3_0 (0 : Fin 2) * 64 + 64; rw [e0]; omega
  | ⟨1, _⟩ => show win3_6.index t3_0 (1 : Fin 2) * 2 ≤ (i 1).val ∧ (i 1).val < win3_6.index t3_0 (1 : Fin 2) * 2 + 2; rw [e1]; omega

theorem final3_6 (c : Dev nD) : (dat3 V c).arrAt 6 cfg3.N = k3_pay2 (V c main_v31) (V c main_arg27) (V c main_arg28) (V c main_arg29) (V c main_arg30) :=
  (dat3 V c).arrAt_eq_of_cover 6 (k3_pay2 (V c main_v31) (V c main_arg27) (V c main_arg28) (V c main_arg29) (V c main_arg30)) (fun t _ => flushed3_6_eq V c t) cover3_6_arr

end Cert.KernelIdeal.Hand
end
-- ==== Proof.BridgeLayer.lean ====
import proofs.«423125_j18107582120449_1_alg».proof.Proof.KIPay
import proofs.«423125_j18107582120449_1_alg».proof.Proof.KIFinal0
import proofs.«423125_j18107582120449_1_alg».proof.Proof.KIFinal1
import proofs.«423125_j18107582120449_1_alg».proof.Proof.KIFinal2
import proofs.«423125_j18107582120449_1_alg».proof.Proof.KIFinal3
import proofs.«423125_j18107582120449_1_alg».proof.Proof.RefStages

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b))

def layerRowOf {D : ℕ} (h : Fin D → Elt Ideal .f32) (v3 : Vec Ideal ⟨2, ![D, 256]⟩ .f32) (v6 v10 v14 v16 v23 : Vec Ideal S256 .f32)
    (v30 : Vec Ideal S256x256 .f32) (v33 : Vec Ideal S256 .f32) (col : Fin 256) : Elt Ideal .f32 :=
  Cert.Spec.layerRow h (fun j k => v3 (ix2 j k)) (fun k => v6 (ix1 k)) (fun k => v14 (ix1 k)) (fun k => v23 (ix1 k))
    (fun k => v16 (ix1 k)) (fun k => v10 (ix1 k)) (fun k c => v30 (ix2 k c)) (fun c => v33 (ix1 c)) col

theorem layer0_bridge (c : Dev nD) :
    ((dat0 V c).arrAt 9 cfg0.N : S50000x256.Idx → Elt Ideal .f32)
      = Cert.ReferenceIdeal.Hand.layer512 (F := Ideal) (V c main_v8) (V c main_arg3) (V c main_arg4) (V c main_arg5) (V c main_arg6) (V c main_arg7) (V c main_arg8) (V c main_arg9) (V c main_arg10) := by
  funext idx
  obtain ⟨r, col, rfl⟩ : ∃ (r : Fin 50000) (col : Fin 256), idx = ix2 r col := ⟨idx 0, idx 1, eq_ix2 idx⟩
  refine (final0_apply V (layerRowOf (D := 512))
    (fun v0 v3 v6 v10 v14 v16 v23 v30 v33 i col => k0_pay1_apply v0 v3 v6 v10 v14 v16 v23 v30 v33 i col) c r col).trans ?_
  exact (Cert.ReferenceIdeal.Hand.layer512_apply (V c main_v8) (V c main_arg3) (V c main_arg4) (V c main_arg5) (V c main_arg6) (V c main_arg7) (V c main_arg8)
    (V c main_arg9) (V c main_arg10) r col).symm

theorem layer1_bridge (c : Dev nD) :
    ((dat1 V c).arrAt 9 cfg1.N : S50000x256.Idx → Elt Ideal .f32)
      = Cert.ReferenceIdeal.Hand.layer256 (F := Ideal) (V c main_v14) (V c main_arg11) (V c main_arg12) (V c main_arg13) (V c main_arg14) (V c main_arg15) (V c main_arg16) (V c main_arg17) (V c main_arg18) := by
  funext idx
  obtain ⟨r, col, rfl⟩ : ∃ (r : Fin 50000) (col : Fin 256), idx = ix2 r col := ⟨idx 0, idx 1, eq_ix2 idx⟩
  refine (final1_apply V (layerRowOf (D := 256))
    (fun v0 v3 v6 v10 v14 v16 v23 v30 v33 i col => k1_pay1_apply v0 v3 v6 v10 v14 v16 v23 v30 v33 i col) c r col).trans ?_
  exact (Cert.ReferenceIdeal.Hand.layer256_apply (V c main_v14) (V c main_arg11) (V c main_arg12) (V c main_arg13) (V c main_arg14) (V c main_arg15) (V c main_arg16)
    (V c main_arg17) (V c main_arg18) r col).symm

theorem layer2_bridge (c : Dev nD) :
    ((dat2 V c).arrAt 9 cfg2.N : S50000x256.Idx → Elt Ideal .f32)
      = Cert.ReferenceIdeal.Hand.layer256 (F := Ideal) (V c main_v20) (V c main_arg19) (V c main_arg20) (V c main_arg21) (V c main_arg22) (V c main_arg23) (V c main_arg24) (V c main_arg25) (V c main_arg26) := by
  funext idx
  obtain ⟨r, col, rfl⟩ : ∃ (r : Fin 50000) (col : Fin 256), idx = ix2 r col := ⟨idx 0, idx 1, eq_ix2 idx⟩
  refine (final2_apply V (layerRowOf (D := 256))
    (fun v0 v3 v6 v10 v14 v16 v23 v30 v33 i col => k2_pay1_apply v0 v3 v6 v10 v14 v16 v23 v30 v33 i col) c r col).trans ?_
  exact (Cert.ReferenceIdeal.Hand.layer256_apply (V c main_v20) (V c main_arg19) (V c main_arg20) (V c main_arg21) (V c main_arg22) (V c main_arg23) (V c main_arg24)
    (V c main_arg25) (V c main_arg26) r col).symm

theorem head0_bridge (c : Dev nD) :
    ((dat3 V c).arrAt 5 cfg3.N : S64x2.Idx → Elt Ideal .f32)
      = Cert.ReferenceIdeal.Hand.headLogits (F := Ideal) (V c main_v31) (V c main_arg27) (V c main_arg28) (V c main_arg29) (V c main_arg30) := by
  rw [final3_5 V c]
  funext idx
  obtain ⟨g, cl, rfl⟩ : ∃ (g : Fin 64) (cl : Fin 2), idx = ix2 g cl := ⟨idx 0, idx 1, eq_ix2 idx⟩
  refine (k3_pay1_apply (V c main_v31) (V c main_arg27) (V c main_arg28) (V c main_arg29) (V c main_arg30) g cl).trans ?_
  exact (Cert.ReferenceIdeal.Hand.headLogits_apply (V c main_v31) (V c main_arg27) (V c main_arg28) (V c main_arg29) (V c main_arg30) g cl).symm

theorem head1_bridge (c : Dev nD) :
    ((dat3 V c).arrAt 6 cfg3.N : S64x2.Idx → Elt Ideal .f32)
      = Cert.ReferenceIdeal.Hand.headLsm (F := Ideal)
          (Cert.ReferenceIdeal.Hand.headLogits (F := Ideal) (V c main_v31) (V c main_arg27) (V c main_arg28) (V c main_arg29) (V c main_arg30)) := by
  rw [final3_6 V c]
  funext idx
  obtain ⟨g, cl, rfl⟩ : ∃ (g : Fin 64) (cl : Fin 2), idx = ix2 g cl := ⟨idx 0, idx 1, eq_ix2 idx⟩
  refine (k3_pay2_apply (V c main_v31) (V c main_arg27) (V c main_arg28) (V c main_arg29) (V c main_arg30) g cl).trans ?_
  refine Eq.trans ?_ (Cert.ReferenceIdeal.Hand.headLsm_apply _ g cl).symm
  exact congrArg (fun z => Cert.Spec.lsmRow z cl) (funext fun c' =>
    (Cert.ReferenceIdeal.Hand.headLogits_apply (V c main_v31) (V c main_arg27) (V c main_arg28) (V c main_arg29) (V c main_arg30) g c').symm)

end Cert.Bridge

end
-- ==== Proof.Bridge.lean ====
import proofs.«423125_j18107582120449_1_alg».proof.Defs
import proofs.«423125_j18107582120449_1_alg».proof.Proof.Gen.Kernel
import proofs.«423125_j18107582120449_1_alg».proof.Proof.Gen.KernelIdeal
import proofs.«423125_j18107582120449_1_alg».proof.Proof.Gen.ReferenceIdeal
import proofs.«423125_j18107582120449_1_alg».proof.Proof.Gen.Pre_finite_inputs
import proofs.«423125_j18107582120449_1_alg».proof.Proof.KIChain
import proofs.«423125_j18107582120449_1_alg».proof.Proof.BridgeAgg
import proofs.«423125_j18107582120449_1_alg».proof.Proof.BridgeLayer

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

theorem src_ok (hpre : Cert.Pre_KernelIdeal m) (c : Dev Cert.KernelIdeal.nD) :
    ∀ e : Cert.KernelIdeal.S400000.Idx,
      IntOp.cmpi .sge (Cert.Pre_finite_inputs.Hand.srcOf (m ((c.tc : Thread Cert.KernelIdeal.nD Cert.KernelIdeal.τ).loc Cert.KernelIdeal.main_arg1)) e) 0#32 = 1#1
      ∧ IntOp.cmpi .slt (Cert.Pre_finite_inputs.Hand.srcOf (m ((c.tc : Thread Cert.KernelIdeal.nD Cert.KernelIdeal.τ).loc Cert.KernelIdeal.main_arg1)) e) 50000#32 = 1#1 :=
  Cert.Pre_finite_inputs.Hand.src_range _ _ _ _ _ _ _ _ _ _ _ _ _ _ _ _ _ _ _ _ _ _ _ _ _ _ _ _ _ _ _ (hpre c)

theorem algebraic : Cert.algebraic_KernelIdeal_ReferenceIdeal := by
  intro m ρ m' ρ' hpre hagree
  refine ⟨fun c => B12 m ρ c (Proc.devRef .tc main_v32_0), fun c => B12 m ρ c (Proc.devRef .tc main_v32_1),
    (θ_run Cert.KernelIdeal.defs _ _).mono (fun r h c => ⟨h c _ (mem_uc main_v32_0 (by decide)), h c _ (mem_uc main_v32_1 (by decide)),
      by and_intros <;> exact kept_arg m ρ _ c (h c) _⟩) (run_all m ρ), ?_⟩
  refine (θ_run Cert.ReferenceIdeal.defs _ _).mono (fun r h c => ?_) (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30⟩ := hagree c
  have hsrc := src_ok m hpre c
  have hH1 : B4 m ρ c (Proc.devRef .tc main_v9) = Cert.ReferenceIdeal.Hand.refH1 m' c := by
    unfold Cert.ReferenceIdeal.Hand.refH1
    rw [B4_v9, layer0_bridge (E3 m ρ) c, E3_v8, E3_arg m ρ c main_arg3 (by decide), E3_arg m ρ c main_arg4 (by decide), E3_arg m ρ c main_arg5 (by decide), E3_arg m ρ c main_arg6 (by decide), E3_arg m ρ c main_arg7 (by decide), E3_arg m ρ c main_arg8 (by decide), E3_arg m ρ c main_arg9 (by decide), E3_arg m ρ c main_arg10 (by decide),
      agg512_bridge _ _ hsrc, h0, h1, h3, h4, h5, h6, h7, h8, h9, h10]
  have hH2 : B7 m ρ c (Proc.devRef .tc main_v15) = Cert.ReferenceIdeal.Hand.refH2 m' c := by
    unfold Cert.ReferenceIdeal.Hand.refH2
    rw [B7_v15, layer1_bridge (E6 m ρ) c, E6_v14, E6_arg m ρ c main_arg11 (by decide), E6_arg m ρ c main_arg12 (by decide), E6_arg m ρ c main_arg13 (by decide), E6_arg m ρ c main_arg14 (by decide), E6_arg m ρ c main_arg15 (by decide), E6_arg m ρ c main_arg16 (by decide), E6_arg m ρ c main_arg17 (by decide), E6_arg m ρ c main_arg18 (by decide),
      agg256_bridge _ _ hsrc, hH1, h1, h11, h12, h13, h14, h15, h16, h17, h18]
  have hH3 : B10 m ρ c (Proc.devRef .tc main_v21) = Cert.ReferenceIdeal.Hand.refH3 m' c := by
    unfold Cert.ReferenceIdeal.Hand.refH3
    rw [B10_v21, layer2_bridge (E9 m ρ) c, E9_v20, E9_arg m ρ c main_arg19 (by decide), E9_arg m ρ c main_arg20 (by decide), E9_arg m ρ c main_arg21 (by decide), E9_arg m ρ c main_arg22 (by decide), E9_arg m ρ c main_arg23 (by decide), E9_arg m ρ c main_arg24 (by decide), E9_arg m ρ c main_arg25 (by decide), E9_arg m ρ c main_arg26 (by decide),
      agg256_bridge _ _ hsrc, hH2, h1, h19, h20, h21, h22, h23, h24, h25, h26]
  have hcat : E11 m ρ c main_v31 = concatenate Cert.ReferenceIdeal.S64x768 1
      [⟨Cert.ReferenceIdeal.S64x256, Cert.ReferenceIdeal.Hand.pool (m' ((c.tc : Thread Cert.ReferenceIdeal.nD Cert.ReferenceIdeal.τ).loc Cert.ReferenceIdeal.main_arg2)) (Cert.ReferenceIdeal.Hand.refH1 m' c)⟩,
       ⟨Cert.ReferenceIdeal.S64x256, Cert.ReferenceIdeal.Hand.pool (m' ((c.tc : Thread Cert.ReferenceIdeal.nD Cert.ReferenceIdeal.τ).loc Cert.ReferenceIdeal.main_arg2)) (Cert.ReferenceIdeal.Hand.refH2 m' c)⟩,
       ⟨Cert.ReferenceIdeal.S64x256, Cert.ReferenceIdeal.Hand.pool (m' ((c.tc : Thread Cert.ReferenceIdeal.nD Cert.ReferenceIdeal.τ).loc Cert.ReferenceIdeal.main_arg2)) (Cert.ReferenceIdeal.Hand.refH3 m' c)⟩]
      Cert.ReferenceIdeal.Facts₀.concatenates_S64x256_S64x256_S64x256_S64x768_d1 := by
    rw [E11_v31, hH1, hH2, hH3, pool_bridge, pool_bridge, pool_bridge, cat_bridge, h2]
  refine ⟨(h c).1.trans ?_, (h c).2.1.trans ?_, (h c).2.2⟩
  · show _ = B12 m ρ c (Proc.devRef .tc main_v32_0)
    rw [Cert.ReferenceIdeal.Hand.res0_eq, B12_v32_0, head0_bridge (E11 m ρ) c, hcat, E11_arg m ρ c main_arg27 (by decide), E11_arg m ρ c main_arg28 (by decide), E11_arg m ρ c main_arg29 (by decide), E11_arg m ρ c main_arg30 (by decide), h27, h28, h29, h30]
  · show _ = B12 m ρ c (Proc.devRef .tc main_v32_1)
    rw [Cert.ReferenceIdeal.Hand.res1_eq, Cert.ReferenceIdeal.Hand.res0_eq, B12_v32_1, head1_bridge (E11 m ρ) c, hcat, E11_arg m ρ c main_arg27 (by decide), E11_arg m ρ c main_arg28 (by decide), E11_arg m ρ c main_arg29 (by decide), E11_arg m ρ c main_arg30 (by decide), h27, h28, h29, h30]

end Cert.Bridge

end
-- ==== Proof.lean ====
import proofs.«423125_j18107582120449_1_alg».proof.Defs
import proofs.«423125_j18107582120449_1_alg».proof.Proof.Gen.Kernel
import proofs.«423125_j18107582120449_1_alg».proof.Proof.Gen.KernelIdeal
import proofs.«423125_j18107582120449_1_alg».proof.Proof.Gen.ReferenceIdeal
import proofs.«423125_j18107582120449_1_alg».proof.Proof.Gen.Pre_finite_inputs
import proofs.«423125_j18107582120449_1_alg».proof.Proof.KRun
import proofs.«423125_j18107582120449_1_alg».proof.Proof.KIRun
import proofs.«423125_j18107582120449_1_alg».proof.Proof.Bridge

noncomputable section

namespace Cert.Proof

open Idealize.ShloMosaic Idealize.SL.Sem

theorem frame_k : Cert.frame_Kernel := fun m ρ _ =>
  (θ_run Cert.Kernel.defs _ _).mono (fun r h c => by and_intros <;> exact Cert.Kernel.Hand.kept_arg m ρ _ c (h c) _) (Cert.Kernel.Hand.run_all m ρ)

theorem frame_ki : Cert.frame_KernelIdeal := fun m ρ _ =>
  (θ_run Cert.KernelIdeal.defs _ _).mono (fun r h c => by and_intros <;> exact Cert.KernelIdeal.Hand.kept_arg m ρ _ c (h c) _) (Cert.KernelIdeal.Hand.run_all m ρ)

theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
